-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32 : Shape := ⟨3, ![8, 2048, 32]⟩
abbrev S8x2048x2048 : Shape := ⟨3, ![8, 2048, 2048]⟩
abbrev S64x224 : Shape := ⟨2, ![64, 224]⟩
abbrev S64 : Shape := ⟨1, ![64]⟩
abbrev S_ : Shape := ⟨0, ![]⟩

class Facts : Prop where
  bcast_S_S8x2048x32 : S_.BroadcastsInDim S8x2048x32 (![] : Fin 0 → Fin S8x2048x32.rank)
  reducesTo_S8x2048x32_S_d0_1_2 : S8x2048x32.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S64x224 : S_.BroadcastsInDim S64x224 (![] : Fin 0 → Fin S64x224.rank)
  reducesTo_S64x224_S_d0_1 : S64x224.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x224 .f32) (main_arg5 : FVec F S64 .f32) (main_arg6 : FVec F S64 .f32) (main_arg7 : FVec F S64 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S64x224 .f32 := Host.absf main_arg4
  let main_cst_6 : FVec F S_ .f32 := constant S_ .f32 0x7F800000#32
  let main_v20 : FVec F S64x224 .f32 := broadcastInDim S64x224 ![] bcast_S_S64x224 main_cst_6
  let main_v21 : IVec S64x224 1 := cmpf .olt main_v19 main_v20
  let main_c_7 : IVec S_ 1 := constantI S_ 1 1#1
  let main_v22 : IVec S_ 1 := (fun x v => Host.reduce IntOp.andi x v reducesTo_S64x224_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S8x2048x32 .f32) (main_arg1 : FVec F S8x2048x2048 .f32) (main_arg2 : FVec F S8x2048x2048 .f32) (main_arg3 : FVec F S8x2048x2048 .f32) (main_arg4 : FVec F S64x224 .f32) (main_arg5 : FVec F S64 .f32) (main_arg6 : FVec F S64 .f32) (main_arg7 : FVec F S64 .f32) : IVec S_ 1 :=
  let main_v0 : FVec F S8x2048x32 .f32 := Host.absf main_arg0
  let main_cst : FVec F S_ .f32 := constant S_ .f32 0x7F800000#32
  let main_v1 : FVec F S8x2048x32 .f32 := broadcastInDim S8x2048x32 ![] bcast_S_S8x2048x32 main_cst
  let main_v2 : IVec S8x2048x32 1 := cmpf .olt main_v0 main_v1
  let main_c : IVec S_ 1 := constantI S_ 1 1#1
  let main_v3 : IVec S_ 1 := (fun x v => Host.reduce IntOp.andi x v reducesTo_S8x2048x32_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg4 main_arg5 main_arg6 main_arg7 main_v13 main_v16
-- ==== Kernel.lean ====
abbrev S8x2048x32 : Shape := ⟨3, ![8, 2048, 32]⟩
abbrev S8x2048x2048 : Shape := ⟨3, ![8, 2048, 2048]⟩
abbrev S64x224 : Shape := ⟨2, ![64, 224]⟩
abbrev S64 : Shape := ⟨1, ![64]⟩
abbrev S8x32x2048 : Shape := ⟨3, ![8, 32, 2048]⟩
abbrev S1x2048x1024 : Shape := ⟨3, ![1, 2048, 1024]⟩
abbrev S1x32x2048 : Shape := ⟨3, ![1, 32, 2048]⟩
abbrev S1x32x1024 : Shape := ⟨3, ![1, 32, 1024]⟩
abbrev S2048x1024 : Shape := ⟨2, ![2048, 1024]⟩
abbrev S32x2048 : Shape := ⟨2, ![32, 2048]⟩
abbrev S32x1024 : Shape := ⟨2, ![32, 1024]⟩
abbrev S8x224x2048 : Shape := ⟨3, ![8, 224, 2048]⟩
abbrev S64x1 : Shape := ⟨2, ![64, 1]⟩
abbrev S8x64x2048 : Shape := ⟨3, ![8, 64, 2048]⟩
abbrev S1x224x2048 : Shape := ⟨3, ![1, 224, 2048]⟩
abbrev S1x64x2048 : Shape := ⟨3, ![1, 64, 2048]⟩
abbrev S224x2048 : Shape := ⟨2, ![224, 2048]⟩
abbrev S64x2048 : Shape := ⟨2, ![64, 2048]⟩
abbrev S_ : Shape := ⟨0, ![]⟩
abbrev S1x64x1 : Shape := ⟨3, ![1, 64, 1]⟩
abbrev S8x2048x64 : Shape := ⟨3, ![8, 2048, 64]⟩

abbrev nBuf : Space → Nat
  | .hbm => 52
  | .vmem => 50
  | .smem => 0
  | _ => 0

abbrev bufTy : (tb : Table) → Fin (tcTables nBuf tb) → BufTy
  | .hbm, ⟨0, _⟩ => ⟨S8x2048x32, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S64x224, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S8x32x2048, .f32⟩
  | .hbm, ⟨9, _⟩ => ⟨S8x32x2048, .f32⟩
  | .hbm, ⟨10, _⟩ => ⟨S8x32x2048, .f32⟩
  | .hbm, ⟨11, _⟩ => ⟨S8x32x2048, .f32⟩
  | .hbm, ⟨12, _⟩ => ⟨S8x32x2048, .f32⟩
  | .hbm, ⟨13, _⟩ => ⟨S8x32x2048, .f32⟩
  | .hbm, ⟨14, _⟩ => ⟨S8x32x2048, .f32⟩
  | .hbm, ⟨15, _⟩ => ⟨S8x224x2048, .f32⟩
  | .hbm, ⟨16, _⟩ => ⟨S64x1, .f32⟩
  | .hbm, ⟨17, _⟩ => ⟨S8x64x2048, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .i32⟩
  | .hbm, ⟨24, _⟩ => ⟨S_, .f32⟩
  | .hbm, ⟨25, _⟩ => ⟨S64, .f32⟩
  | .hbm, ⟨26, _⟩ => ⟨S1x64x1, .f32⟩
  | .hbm, ⟨27, _⟩ => ⟨S_, .f32⟩
  | .hbm, ⟨28, _⟩ => ⟨S1x64x1, .f32⟩
  | .hbm, ⟨29, _⟩ => ⟨S1x64x1, .f32⟩
  | .hbm, ⟨30, _⟩ => ⟨S8x64x2048, .f32⟩
  | .hbm, ⟨31, _⟩ => ⟨S8x64x2048, .f32⟩
  | .hbm, ⟨32, _⟩ => ⟨S8x64x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S64x1, .f32⟩
  | .hbm, ⟨50, _⟩ => ⟨S8x64x2048, .f32⟩
  | .hbm, ⟨51, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1x32x2048, .f32⟩
  | .local _ .vmem, ⟨3, _⟩ => ⟨S1x32x2048, .f32⟩
  | .local _ .vmem, ⟨4, _⟩ => ⟨S1x32x1024, .f32⟩
  | .local _ .vmem, ⟨5, _⟩ => ⟨S1x32x1024, .f32⟩
  | .local _ .vmem, ⟨6, _⟩ => ⟨S1x2048x1024, .f32⟩
  | .local _ .vmem, ⟨7, _⟩ => ⟨S1x2048x1024, .f32⟩
  | .local _ .vmem, ⟨8, _⟩ => ⟨S1x32x2048, .f32⟩
  | .local _ .vmem, ⟨9, _⟩ => ⟨S1x32x2048, .f32⟩
  | .local _ .vmem, ⟨10, _⟩ => ⟨S1x32x1024, .f32⟩
  | .local _ .vmem, ⟨11, _⟩ => ⟨S1x32x1024, .f32⟩
  | .local _ .vmem, ⟨12, _⟩ => ⟨S1x2048x1024, .f32⟩
  | .local _ .vmem, ⟨13, _⟩ => ⟨S1x2048x1024, .f32⟩
  | .local _ .vmem, ⟨14, _⟩ => ⟨S1x32x2048, .f32⟩
  | .local _ .vmem, ⟨15, _⟩ => ⟨S1x32x2048, .f32⟩
  | .local _ .vmem, ⟨16, _⟩ => ⟨S1x32x1024, .f32⟩
  | .local _ .vmem, ⟨17, _⟩ => ⟨S1x32x1024, .f32⟩
  | .local _ .vmem, ⟨18, _⟩ => ⟨S1x2048x1024, .f32⟩
  | .local _ .vmem, ⟨19, _⟩ => ⟨S1x2048x1024, .f32⟩
  | .local _ .vmem, ⟨20, _⟩ => ⟨S1x32x2048, .f32⟩
  | .local _ .vmem, ⟨21, _⟩ => ⟨S1x32x2048, .f32⟩
  | .local _ .vmem, ⟨22, _⟩ => ⟨S1x32x1024, .f32⟩
  | .local _ .vmem, ⟨23, _⟩ => ⟨S1x32x1024, .f32⟩
  | .local _ .vmem, ⟨24, _⟩ => ⟨S1x2048x1024, .f32⟩
  | .local _ .vmem, ⟨25, _⟩ => ⟨S1x2048x1024, .f32⟩
  | .local _ .vmem, ⟨26, _⟩ => ⟨S1x32x2048, .f32⟩
  | .local _ .vmem, ⟨27, _⟩ => ⟨S1x32x2048, .f32⟩
  | .local _ .vmem, ⟨28, _⟩ => ⟨S1x32x1024, .f32⟩
  | .local _ .vmem, ⟨29, _⟩ => ⟨S1x32x1024, .f32⟩
  | .local _ .vmem, ⟨30, _⟩ => ⟨S1x2048x1024, .f32⟩
  | .local _ .vmem, ⟨31, _⟩ => ⟨S1x2048x1024, .f32⟩
  | .local _ .vmem, ⟨32, _⟩ => ⟨S1x32x2048, .f32⟩
  | .local _ .vmem, ⟨33, _⟩ => ⟨S1x32x2048, .f32⟩
  | .local _ .vmem, ⟨34, _⟩ => ⟨S1x32x1024, .f32⟩
  | .local _ .vmem, ⟨35, _⟩ => ⟨S1x32x1024, .f32⟩
  | .local _ .vmem, ⟨36, _⟩ => ⟨S1x224x2048, .f32⟩
  | .local _ .vmem, ⟨37, _⟩ => ⟨S1x224x2048, .f32⟩
  | .local _ .vmem, ⟨38, _⟩ => ⟨S64x224, .f32⟩
  | .local _ .vmem, ⟨39, _⟩ => ⟨S64x1, .f32⟩
  | .local _ .vmem, ⟨40, _⟩ => ⟨S1x64x2048, .f32⟩
  | .local _ .vmem, ⟨41, _⟩ => ⟨S1x64x2048, .f32⟩
  | .local _ .vmem, ⟨42, _⟩ => ⟨S1x64x2048, .f32⟩
  | .local _ .vmem, ⟨43, _⟩ => ⟨S1x64x2048, .f32⟩
  | .local _ .vmem, ⟨44, _⟩ => ⟨S64x1, .f32⟩
  | .local _ .vmem, ⟨45, _⟩ => ⟨S64x1, .f32⟩
  | .local _ .vmem, ⟨46, _⟩ => ⟨S64x1, .f32⟩
  | .local _ .vmem, ⟨47, _⟩ => ⟨S64x1, .f32⟩
  | .local _ .vmem, ⟨48, _⟩ => ⟨S1x64x2048, .f32⟩
  | .local _ .vmem, ⟨49, _⟩ => ⟨S1x64x2048, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg4_0 : Ref sig .tc := ⟨.vmem, 47, rfl⟩
abbrev cc7_stg5_0 : Ref sig .tc := ⟨.vmem, 48, rfl⟩
abbrev cc7_stg5_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem4_0 : DmaSem sig := 47
abbrev cc7_sem5_0 : DmaSem sig := 48
abbrev cc7_sem5_1 : DmaSem sig := 49

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x32x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x32x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x32x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 2], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x32x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x32x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x32x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x32x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x224x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x224 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x64x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x64x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x64x2048 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  transposes_S8x2048x32_S8x32x2048_0_2_1 : S8x2048x32.Transposes [0, 2, 1] S8x32x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  concatenates_S8x32x2048_S8x32x2048_S8x32x2048_S8x32x2048_S8x32x2048_S8x32x2048_S8x32x2048_S8x224x2048_d1 : Shape.Concatenates [S8x32x2048, S8x32x2048, S8x32x2048, S8x32x2048, S8x32x2048, S8x32x2048, S8x32x2048] S8x224x2048 1
  bcast_S64_S64x1_0 : S64.BroadcastsInDim S64x1 (![0] : Fin 1 → Fin S64x1.rank)
  inb_S1x224x2048_S1x224x2048_0_0_0 : ∀ a, (![0, 0, 0] : Fin 3 → Nat) a + S1x224x2048.size a ≤ S1x224x2048.size a
  h_S1x224x2048 : 0 < S1x224x2048.numel
  shapeCasts_S1x224x2048_S224x2048 : S1x224x2048.ShapeCasts S224x2048
  inb_S64x224_S64x224_0_0 : ∀ a, (![0, 0] : Fin 2 → Nat) a + S64x224.size a ≤ S64x224.size a
  h_S64x224 : 0 < S64x224.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  reducesTo_S8x64x2048_S64_d0_2 : S8x64x2048.ReducesTo [0, 2] S64
  h_S_ : 0 < S_.numel
  bcast_S_S64 : S_.BroadcastsInDim S64 (![] : Fin 0 → Fin S64.rank)
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S8x64x2048_0_1_2 : S1x64x1.BroadcastsInDim S8x64x2048 (![0, 1, 2] : Fin 3 → Fin S8x64x2048.rank)
  transposes_S8x64x2048_S8x2048x64_0_2_1 : S8x64x2048.Transposes [0, 2, 1] S8x2048x64
  dot_S32x2048_S2048x1024_S32x1024_1_0_0_1_n_n_wf : DotDims.WF S32x2048 S2048x1024 S32x1024 [1] [0] [0] [1] [] []
  dot_S64x224_S224x2048_S64x2048_1_0_0_1_n_n_wf : DotDims.WF S64x224 S224x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x2048.size a
  hwx0_0 : ∀ i : grid0.Coords, EltTy.bits .f32 = 32 ∨ (Rect.block (s := S8x2048x2048) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x2048.size a ≤ S8x32x2048.size a
  hwx0_1 : ∀ i : grid0.Coords, EltTy.bits .f32 = 32 ∨ (Rect.block (s := S8x32x2048) S1x32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1024.size a ≤ S8x32x2048.size a
  hwx0_2 : ∀ i : grid0.Coords, EltTy.bits .f32 = 32 ∨ (Rect.block (s := S8x32x2048) S1x32x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x2048x2048.size a
  hwx1_0 : ∀ i : grid1.Coords, EltTy.bits .f32 = 32 ∨ (Rect.block (s := S8x2048x2048) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x2048.size a ≤ S8x32x2048.size a
  hwx1_1 : ∀ i : grid1.Coords, EltTy.bits .f32 = 32 ∨ (Rect.block (s := S8x32x2048) S1x32x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x1024.size a ≤ S8x32x2048.size a
  hwx1_2 : ∀ i : grid1.Coords, EltTy.bits .f32 = 32 ∨ (Rect.block (s := S8x32x2048) S1x32x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x1024.size a ≤ S8x2048x2048.size a
  hwx2_0 : ∀ i : grid2.Coords, EltTy.bits .f32 = 32 ∨ (Rect.block (s := S8x2048x2048) S1x2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x2048.size a ≤ S8x32x2048.size a
  hwx2_1 : ∀ i : grid2.Coords, EltTy.bits .f32 = 32 ∨ (Rect.block (s := S8x32x2048) S1x32x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x32x1024.size a ≤ S8x32x2048.size a
  hwx2_2 : ∀ i : grid2.Coords, EltTy.bits .f32 = 32 ∨ (Rect.block (s := S8x32x2048) S1x32x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x1024.size a ≤ S8x2048x2048.size a
  hwx3_0 : ∀ i : grid3.Coords, EltTy.bits .f32 = 32 ∨ (Rect.block (s := S8x2048x2048) S1x2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x32x2048.size a ≤ S8x32x2048.size a
  hwx3_1 : ∀ i : grid3.Coords, EltTy.bits .f32 = 32 ∨ (Rect.block (s := S8x32x2048) S1x32x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x32x1024.size a ≤ S8x32x2048.size a
  hwx3_2 : ∀ i : grid3.Coords, EltTy.bits .f32 = 32 ∨ (Rect.block (s := S8x32x2048) S1x32x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048x1024.size a ≤ S8x2048x2048.size a
  hwx4_0 : ∀ i : grid4.Coords, EltTy.bits .f32 = 32 ∨ (Rect.block (s := S8x2048x2048) S1x2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x32x2048.size a ≤ S8x32x2048.size a
  hwx4_1 : ∀ i : grid4.Coords, EltTy.bits .f32 = 32 ∨ (Rect.block (s := S8x32x2048) S1x32x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x32x1024.size a ≤ S8x32x2048.size a
  hwx4_2 : ∀ i : grid4.Coords, EltTy.bits .f32 = 32 ∨ (Rect.block (s := S8x32x2048) S1x32x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048x1024.size a ≤ S8x2048x2048.size a
  hwx5_0 : ∀ i : grid5.Coords, EltTy.bits .f32 = 32 ∨ (Rect.block (s := S8x2048x2048) S1x2048x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x32x2048.size a ≤ S8x32x2048.size a
  hwx5_1 : ∀ i : grid5.Coords, EltTy.bits .f32 = 32 ∨ (Rect.block (s := S8x32x2048) S1x32x2048.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x32x1024.size a ≤ S8x32x2048.size a
  hwx5_2 : ∀ i : grid5.Coords, EltTy.bits .f32 = 32 ∨ (Rect.block (s := S8x32x2048) S1x32x1024.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x224x2048.size a ≤ S8x224x2048.size a
  hwx6_0 : ∀ i : grid6.Coords, EltTy.bits .f32 = 32 ∨ (Rect.block (s := S8x224x2048) S1x224x2048.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x224.size a ≤ S64x224.size a
  hwx6_1 : ∀ i : grid6.Coords, EltTy.bits .f32 = 32 ∨ (Rect.block (s := S64x224) S64x224.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x64x2048.size a ≤ S8x64x2048.size a
  hwx6_3 : ∀ i : grid6.Coords, EltTy.bits .f32 = 32 ∨ (Rect.block (s := S8x64x2048) S1x64x2048.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x64x2048.size a ≤ S8x64x2048.size a
  hwx7_0 : ∀ i : grid7.Coords, EltTy.bits .f32 = 32 ∨ (Rect.block (s := S8x64x2048) S1x64x2048.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x1.size a ≤ S64x1.size a
  hwx7_2 : ∀ i : grid7.Coords, EltTy.bits .f32 = 32 ∨ (Rect.block (s := S64x1) S64x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x1.size a ≤ S64x1.size a
  hwx7_3 : ∀ i : grid7.Coords, EltTy.bits .f32 = 32 ∨ (Rect.block (s := S64x1) S64x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x1.size a ≤ S64x1.size a
  hwx7_4 : ∀ i : grid7.Coords, EltTy.bits .f32 = 32 ∨ (Rect.block (s := S64x1) S64x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x64x2048.size a ≤ S8x64x2048.size a
  hwx7_5 : ∀ i : grid7.Coords, EltTy.bits .f32 = 32 ∨ (Rect.block (s := S8x64x2048) S1x64x2048.size (cc7_transform_5 i) (hinb7_5 i)).WholeWords (EltTy.packing .f32)

variable [Facts₀]

def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf
def dot_S64x224_S224x2048_S64x2048_1_0_0_1_n_n : DotDims S64x224 S224x2048 S64x2048 where
  lhsContracting := [1]
  rhsContracting := [0]
  lhsNonContracting := [0]
  rhsNonContracting := [1]
  lhsBatch := []
  rhsBatch := []
  wf := dot_S64x224_S224x2048_S64x2048_1_0_0_1_n_n_wf

abbrev win0_0 : Pipeline.Window sig grid0 :=
  Pipeline.Window.ofSpec (Memref.whole main_arg1) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x32x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1x2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x32x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x32x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S1x2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x32x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x32x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg3) S1x2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1x32x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S1x32x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S1x2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S1x32x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S1x32x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v7) S1x224x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S64x224.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v8) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v9) S1x64x2048.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v9) S1x64x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S64x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v16) S64x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v17) S64x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v18) S1x64x2048.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S8x2048x32 : Shape := ⟨3, ![8, 2048, 32]⟩
abbrev S8x2048x2048 : Shape := ⟨3, ![8, 2048, 2048]⟩
abbrev S64x224 : Shape := ⟨2, ![64, 224]⟩
abbrev S64 : Shape := ⟨1, ![64]⟩
abbrev S8x2048x224 : Shape := ⟨3, ![8, 2048, 224]⟩
abbrev S8x2048x64 : Shape := ⟨3, ![8, 2048, 64]⟩
abbrev S1x1x64 : Shape := ⟨3, ![1, 1, 64]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x32, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S64x224, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S8x2048x32, .f32⟩
  | .hbm, ⟨9, _⟩ => ⟨S8x2048x32, .f32⟩
  | .hbm, ⟨10, _⟩ => ⟨S8x2048x32, .f32⟩
  | .hbm, ⟨11, _⟩ => ⟨S8x2048x32, .f32⟩
  | .hbm, ⟨12, _⟩ => ⟨S8x2048x32, .f32⟩
  | .hbm, ⟨13, _⟩ => ⟨S8x2048x32, .f32⟩
  | .hbm, ⟨14, _⟩ => ⟨S8x2048x224, .f32⟩
  | .hbm, ⟨15, _⟩ => ⟨S8x2048x64, .f32⟩
  | .hbm, ⟨16, _⟩ => ⟨S1x1x64, .f32⟩
  | .hbm, ⟨17, _⟩ => ⟨S8x2048x64, .f32⟩
  | .hbm, ⟨18, _⟩ => ⟨S8x2048x64, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .i32⟩
  | .hbm, ⟨25, _⟩ => ⟨S_, .f32⟩
  | .hbm, ⟨26, _⟩ => ⟨S64, .f32⟩
  | .hbm, ⟨27, _⟩ => ⟨S1x1x64, .f32⟩
  | .hbm, ⟨28, _⟩ => ⟨S_, .f32⟩
  | .hbm, ⟨29, _⟩ => ⟨S1x1x64, .f32⟩
  | .hbm, ⟨30, _⟩ => ⟨S1x1x64, .f32⟩
  | .hbm, ⟨31, _⟩ => ⟨S8x2048x64, .f32⟩
  | .hbm, ⟨32, _⟩ => ⟨S8x2048x64, .f32⟩
  | .hbm, ⟨33, _⟩ => ⟨S8x2048x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x1x64, .f32⟩
  | .hbm, ⟨48, _⟩ => ⟨S8x2048x64, .f32⟩
  | .hbm, ⟨49, _⟩ => ⟨S8x2048x64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x1x64, .f32⟩
  | .hbm, ⟨55, _⟩ => ⟨S8x2048x64, .f32⟩
  | .hbm, ⟨56, _⟩ => ⟨S8x2048x64, .f32⟩
  | .hbm, ⟨57, _⟩ => ⟨S1x1x64, .f32⟩
  | .hbm, ⟨58, _⟩ => ⟨S8x2048x64, .f32⟩
  | .hbm, ⟨59, _⟩ => ⟨S8x2048x64, .f32⟩
  | .hbm, ⟨60, _⟩ => ⟨S1x1x64, .f32⟩
  | .hbm, ⟨61, _⟩ => ⟨S8x2048x64, .f32⟩
  | .hbm, ⟨62, _⟩ => ⟨S8x2048x64, .f32⟩
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]

class Facts₀ : Prop where
  concatenates_S8x2048x32_S8x2048x32_S8x2048x32_S8x2048x32_S8x2048x32_S8x2048x32_S8x2048x32_S8x2048x224_d2 : Shape.Concatenates [S8x2048x32, S8x2048x32, S8x2048x32, S8x2048x32, S8x2048x32, S8x2048x32, S8x2048x32] S8x2048x224 2
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S64_d0_1 : S8x2048x64.ReducesTo [0, 1] S64
  h_S_ : 0 < S_.numel
  bcast_S_S64 : S_.BroadcastsInDim S64 (![] : Fin 0 → Fin S64.rank)
  bcast_S_S1x1x64 : S_.BroadcastsInDim S1x1x64 (![] : Fin 0 → Fin S1x1x64.rank)
  dot_S8x2048x2048_S8x2048x32_S8x2048x32_1_1_2_2_0_0_wf : DotDims.WF S8x2048x2048 S8x2048x32 S8x2048x32 [1] [1] [2] [2] [0] [0]
  dot_S8x2048x224_S64x224_S8x2048x64_2_1_01_0_n_n_wf : DotDims.WF S8x2048x224 S64x224 S8x2048x64 [2] [1] [0, 1] [0] [] []

variable [Facts₀]

def dot_S8x2048x2048_S8x2048x32_S8x2048x32_1_1_2_2_0_0 : DotDims S8x2048x2048 S8x2048x32 S8x2048x32 where
  lhsContracting := [1]
  rhsContracting := [1]
  lhsNonContracting := [2]
  rhsNonContracting := [2]
  lhsBatch := [0]
  rhsBatch := [0]
  wf := dot_S8x2048x2048_S8x2048x32_S8x2048x32_1_1_2_2_0_0_wf
def dot_S8x2048x224_S64x224_S8x2048x64_2_1_01_0_n_n : DotDims S8x2048x224 S64x224 S8x2048x64 where
  lhsContracting := [2]
  rhsContracting := [1]
  lhsNonContracting := [0, 1]
  rhsNonContracting := [0]
  lhsBatch := []
  rhsBatch := []
  wf := dot_S8x2048x224_S64x224_S8x2048x64_2_1_01_0_n_n_wf

class Facts : Prop extends Facts₀ where

variable [Facts]
-- ==== Proof.KernelFrame.Hops.lean ====
import proofs.«142868_j70317204570386_1_alg».proof.Proof.Gen.Kernel.Launch
import proofs.«142868_j70317204570386_1_alg».proof.Proof.Gen.Kernel.Skeleton
import proofs.«142868_j70317204570386_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S1x2048x1024 := Rect.unit (s := S1x2048x1024) ![0, 0, 0] S1x2048x1024.size inb_S1x2048x1024_S1x2048x1024_0_0_0
abbrev r0_1 : Rect S1x32x2048 := Rect.unit (s := S1x32x2048) ![0, 0, 0] S1x32x2048.size inb_S1x32x2048_S1x32x2048_0_0_0
abbrev r0_2 : Rect S1x32x1024 := Rect.unit (s := S1x32x1024) ![0, 0, 0] S1x32x1024.size inb_S1x32x1024_S1x32x1024_0_0_0

def out0_2 (x0 : Vec F S1x2048x1024 .f32) (x1 : Vec F S1x32x2048 .f32) : Vec F S1x32x1024 .f32 :=
  View.canon [⟨r0_2, k0_pay1 (View.ld x0 r0_0) (View.ld x1 r0_1)⟩]

set_option maxHeartbeats 1000000 in
-- The one body of all six hop calls: it reads both input blocks whole and covers the output block with one store of their product; two propositions are carried through unread.
theorem hop_body (c : Dev nD) (i : grid0.Coords) (a0 : Memref sig .tc .vmem S1x2048x1024 .f32) (h0 : a0.IsWhole) (a1 : Memref sig .tc .vmem S1x32x2048 .f32) (h1 : a1.IsWhole) (a2 : Memref sig .tc .vmem S1x32x1024 .f32) (h2 : a2.IsWhole)
    (x0 : Vec F S1x2048x1024 .f32) (x1 : Vec F S1x32x2048 .f32) (P Q : sProp 𝕄)
    {b0 : Vec F S1x2048x1024 .f32 → Vec F S1x2048x1024 .f32} {b1 : Vec F S1x32x2048 .f32 → Vec F S1x32x2048 .f32} {b2 : Vec F S1x32x1024 .f32 → Vec F S1x32x1024 .f32}
    {y2 : Vec F S1x32x1024 .f32} (e0 : ∀ d, b0 d = x0) (e1 : ∀ d, b1 d = x1) (g2 : y2 = out0_2 x0 x1) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)))
      ⊢ wp frame (wpE (defs₀ (F := F)) Variants.none c none) Set.univ (cc0__nconv_kernel i a0 h0 a1 h1 a2 h2) fun _ =>
        iprop(P ∗ Q ∗ owns (c : Thread nD τ) a0 fullShare x0 ∗ owns (c : Thread nD τ) a1 fullShare x1 ∗ owns (c : Thread nD τ) a2 fullShare y2) := by
  subst g2
  simp only [e0, e1, cc0__nconv_kernel_eq_skeleton]; unfold cc0__nconv_kernel_skel
  unfold owns
  iintro ⟨HP, HQ, ⟨%d0, %f0, %hf0, H0⟩, ⟨%d1, %f1, %hf1, H1⟩, ⟨%d2, %f2, -, H2⟩⟩
  subst hf0 hf1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1x32x1024.size (by rfl))

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  exact hop_body c (grid0.coords t) _ (stage_whole0 0 _) _ (stage_whole0 1 _) _ (stage_whole0 2 _) _ _ _ _
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t) (after0_2 V c t)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out0_2 (iblk1 V c 0 t) (iblk1 V c 1 t)
  Φ _ := Pipeline.ΦA spec1 c
  q _ := fullShare
  owed _ := 0

theorem after1_2 (c : Dev nD) (t : Fin cfg1.N) : (dat1 V c).after 2 t = out0_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  exact hop_body c (grid1.coords t) _ (stage_whole1 0 _) _ (stage_whole1 1 _) _ (stage_whole1 2 _) _ _ _ _
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t) (after1_2 V c t)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out0_2 (iblk2 V c 0 t) (iblk2 V c 1 t)
  Φ _ := Pipeline.ΦA spec2 c
  q _ := fullShare
  owed _ := 0

theorem after2_2 (c : Dev nD) (t : Fin cfg2.N) : (dat2 V c).after 2 t = out0_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  exact hop_body c (grid2.coords t) _ (stage_whole2 0 _) _ (stage_whole2 1 _) _ (stage_whole2 2 _) _ _ _ _
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t) (after2_2 V c t)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q _ := fullShare
  owed _ := 0

theorem after3_2 (c : Dev nD) (t : Fin cfg3.N) : (dat3 V c).after 2 t = out0_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  exact hop_body c (grid3.coords t) _ (stage_whole3 0 _) _ (stage_whole3 1 _) _ (stage_whole3 2 _) _ _ _ _
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t) (after3_2 V c t)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out0_2 (iblk4 V c 0 t) (iblk4 V c 1 t)
  Φ _ := Pipeline.ΦA spec4 c
  q _ := fullShare
  owed _ := 0

theorem after4_2 (c : Dev nD) (t : Fin cfg4.N) : (dat4 V c).after 2 t = out0_2 (iblk4 V c 0 t) (iblk4 V c 1 t) := by dsimp only [dat4]

theorem body_obligation4 (c : Dev nD) : BodyObligation (dat4 (F := F) V c) (defs₀ (F := F)) Variants.none () Set.univ := fun t => by
  rw [bigSep_W4, bigSep_W4]
  exact hop_body c (grid4.coords t) _ (stage_whole4 0 _) _ (stage_whole4 1 _) _ (stage_whole4 2 _) _ _ _ _
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t) (after4_2 V c t)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out0_2 (iblk5 V c 0 t) (iblk5 V c 1 t)
  Φ _ := Pipeline.ΦA spec5 c
  q _ := fullShare
  owed _ := 0

theorem after5_2 (c : Dev nD) (t : Fin cfg5.N) : (dat5 V c).after 2 t = out0_2 (iblk5 V c 0 t) (iblk5 V c 1 t) := by dsimp only [dat5]

theorem body_obligation5 (c : Dev nD) : BodyObligation (dat5 (F := F) V c) (defs₀ (F := F)) Variants.none () Set.univ := fun t => by
  rw [bigSep_W5, bigSep_W5]
  exact hop_body c (grid5.coords t) _ (stage_whole5 0 _) _ (stage_whole5 1 _) _ (stage_whole5 2 _) _ _ _ _
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t) (after5_2 V c t)

end Region

end Cert.Kernel.Hand

end
-- ==== Proof.KernelFrame.Region6.lean ====
import proofs.«142868_j70317204570386_1_alg».proof.Proof.Gen.Kernel.Launch
import proofs.«142868_j70317204570386_1_alg».proof.Proof.Gen.Kernel.Skeleton
import proofs.«142868_j70317204570386_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x224x2048 := Rect.unit (s := S1x224x2048) ![0, 0, 0] S1x224x2048.size inb_S1x224x2048_S1x224x2048_0_0_0
abbrev r6_1 : Rect S64x224 := Rect.unit (s := S64x224) ![0, 0] S64x224.size inb_S64x224_S64x224_0_0
abbrev r6_2 : Rect S64x1 := Rect.unit (s := S64x1) ![0, 0] S64x1.size inb_S64x1_S64x1_0_0
abbrev r6_3 : Rect S1x64x2048 := Rect.unit (s := S1x64x2048) ![0, 0, 0] S1x64x2048.size inb_S1x64x2048_S1x64x2048_0_0_0

def out6_3 (x0 : Vec F S1x224x2048 .f32) (x1 : Vec F S64x224 .f32) (x2 : Vec F S64x1 .f32) : Vec F S1x64x2048 .f32 :=
  View.canon [⟨r6_3, k6_pay1 (View.ld x0 r6_0) (View.ld x1 r6_1) (View.ld x2 r6_2)⟩]

set_option maxHeartbeats 1000000 in
-- The body reads its three input blocks whole and covers the output block with one store; two propositions are carried through unread.
theorem body6 (c : Dev nD) (i : grid6.Coords) (a0 : Memref sig .tc .vmem S1x224x2048 .f32) (h0 : a0.IsWhole) (a1 : Memref sig .tc .vmem S64x224 .f32) (h1 : a1.IsWhole) (a2 : Memref sig .tc .vmem S64x1 .f32) (h2 : a2.IsWhole) (a3 : Memref sig .tc .vmem S1x64x2048 .f32) (h3 : a3.IsWhole)
    (x0 : Vec F S1x224x2048 .f32) (x1 : Vec F S64x224 .f32) (x2 : Vec F S64x1 .f32) (P Q : sProp 𝕄)
    {b0 : Vec F S1x224x2048 .f32 → Vec F S1x224x2048 .f32} {b1 : Vec F S64x224 .f32 → Vec F S64x224 .f32} {b2 : Vec F S64x1 .f32 → Vec F S64x1 .f32} {b3 : Vec F S1x64x2048 .f32 → Vec F S1x64x2048 .f32}
    {y3 : Vec F S1x64x2048 .f32} (e0 : ∀ d, b0 d = x0) (e1 : ∀ d, b1 d = x1) (e2 : ∀ d, b2 d = x2) (g3 : y3 = out6_3 x0 x1 x2) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)))
      ⊢ wp frame (wpE (defs₀ (F := F)) Variants.none c none) Set.univ (cc6__conv1x1_kernel i a0 h0 a1 h1 a2 h2 a3 h3) fun _ =>
        iprop(P ∗ Q ∗ owns (c : Thread nD τ) a0 fullShare x0 ∗ owns (c : Thread nD τ) a1 fullShare x1 ∗ owns (c : Thread nD τ) a2 fullShare x2 ∗ owns (c : Thread nD τ) a3 fullShare y3) := by
  subst g3
  simp only [e0, e1, e2, cc6__conv1x1_kernel_eq_skeleton]; unfold cc6__conv1x1_kernel_skel
  unfold owns
  iintro ⟨HP, HQ, ⟨%d0, %f0, %hf0, H0⟩, ⟨%d1, %f1, %hf1, H1⟩, ⟨%d2, %f2, %hf2, H2⟩, ⟨%d3, %f3, -, H3⟩⟩
  subst hf0 hf1 hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x64x2048.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) : (dat6 V c).after 3 t = out6_3 (iblk6 V c 0 t) (iblk6 V c 1 t) (iblk6 V c 2 t) := by dsimp only [dat6]

theorem body_obligation6 (c : Dev nD) : BodyObligation (dat6 (F := F) V c) (defs₀ (F := F)) Variants.none () Set.univ := fun t => by
  rw [bigSep_W6, bigSep_W6]
  exact body6 c (grid6.coords t) _ (stage_whole6 0 _) _ (stage_whole6 1 _) _ (stage_whole6 2 _) _ (stage_whole6 3 _) _ _ _ _ _
    ((dat6 V c).before_in_eq_fetched 0 rfl (fun _ => rfl) (fun _ _ _ => rfl) (fun _ => rfl) t)
    ((dat6 V c).before_in_eq_fetched 1 rfl (fun _ => rfl) (fun _ _ _ => rfl) (fun _ => rfl) t)
    ((dat6 V c).before_in_eq_fetched 2 rfl (fun _ => rfl) (fun _ _ _ => rfl) (fun _ => rfl) t) (after6_3 V c t)

end Region

end Cert.Kernel.Hand

end
-- ==== Proof.KernelFrame.Region7.lean ====
import proofs.«142868_j70317204570386_1_alg».proof.Proof.Gen.Kernel.Launch
import proofs.«142868_j70317204570386_1_alg».proof.Proof.Gen.Kernel.Skeleton
import proofs.«142868_j70317204570386_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1x64x2048 := Rect.unit (s := S1x64x2048) ![0, 0, 0] S1x64x2048.size inb_S1x64x2048_S1x64x2048_0_0_0
abbrev r7_1 : Rect S64x1 := Rect.unit (s := S64x1) ![0, 0] S64x1.size inb_S64x1_S64x1_0_0

def out7_5 (x0 : Vec F S1x64x2048 .f32) (x1 x2 x3 x4 : Vec F S64x1 .f32) : Vec F S1x64x2048 .f32 :=
  View.canon [⟨r7_0, k7_pay1 (View.ld x0 r7_0) (View.ld x2 r7_1) (View.ld x1 r7_1) (View.ld x3 r7_1) (View.ld x4 r7_1)⟩]

set_option maxHeartbeats 1000000 in
-- The body reads its five input blocks whole and covers the output block with one store; two propositions are carried through unread.
theorem body7 (c : Dev nD) (i : grid7.Coords) (a0 : Memref sig .tc .vmem S1x64x2048 .f32) (h0 : a0.IsWhole) (a1 : Memref sig .tc .vmem S64x1 .f32) (h1 : a1.IsWhole) (a2 : Memref sig .tc .vmem S64x1 .f32) (h2 : a2.IsWhole) (a3 : Memref sig .tc .vmem S64x1 .f32) (h3 : a3.IsWhole) (a4 : Memref sig .tc .vmem S64x1 .f32) (h4 : a4.IsWhole) (a5 : Memref sig .tc .vmem S1x64x2048 .f32) (h5 : a5.IsWhole)
    (x0 : Vec F S1x64x2048 .f32) (x1 x2 x3 x4 : Vec F S64x1 .f32) (P Q : sProp 𝕄)
    {b0 b5 : Vec F S1x64x2048 .f32 → Vec F S1x64x2048 .f32} {b1 b2 b3 b4 : Vec F S64x1 .f32 → Vec F S64x1 .f32} {y5 : Vec F S1x64x2048 .f32}
    (e0 : ∀ d, b0 d = x0) (e1 : ∀ d, b1 d = x1) (e2 : ∀ d, b2 d = x2) (e3 : ∀ d, b3 d = x3) (e4 : ∀ d, b4 d = x4) (g5 : y5 = out7_5 x0 x1 x2 x3 x4) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)))
      ⊢ wp frame (wpE (defs₀ (F := F)) Variants.none c none) Set.univ (cc7__bn_kernel i a0 h0 a1 h1 a2 h2 a3 h3 a4 h4 a5 h5) fun _ =>
        iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare y5) := by
  subst g5
  simp only [e0, e1, e2, e3, e4, cc7__bn_kernel_eq_skeleton]; unfold cc7__bn_kernel_skel
  unfold owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S1x64x2048.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem body_obligation7 (c : Dev nD) : BodyObligation (dat7 (F := F) V c) (defs₀ (F := F)) Variants.none () Set.univ := fun t => by
  rw [bigSep_W7, bigSep_W7]
  exact body7 c (grid7.coords t) _ (stage_whole7 0 _) _ (stage_whole7 1 _) _ (stage_whole7 2 _) _ (stage_whole7 3 _) _ (stage_whole7 4 _) _ (stage_whole7 5 _) _ _ _ _ _ _ _
    ((dat7 V c).before_in_eq_fetched 0 rfl (fun _ => rfl) (fun _ _ _ => rfl) (fun _ => rfl) t)
    ((dat7 V c).before_in_eq_fetched 1 rfl (fun _ => rfl) (fun _ _ _ => rfl) (fun _ => rfl) t)
    ((dat7 V c).before_in_eq_fetched 2 rfl (fun _ => rfl) (fun _ _ _ => rfl) (fun _ => rfl) t)
    ((dat7 V c).before_in_eq_fetched 3 rfl (fun _ => rfl) (fun _ _ _ => rfl) (fun _ => rfl) t)
    ((dat7 V c).before_in_eq_fetched 4 rfl (fun _ => rfl) (fun _ _ _ => rfl) (fun _ => rfl) t) (after7_5 V c t)

end Region

end Cert.Kernel.Hand

end
-- ==== Proof.KernelFrame.Fold.lean ====
import proofs.«142868_j70317204570386_1_alg».proof.Proof.KernelFrame.Hops
import proofs.«142868_j70317204570386_1_alg».proof.Proof.KernelFrame.Region6
import proofs.«142868_j70317204570386_1_alg».proof.Proof.KernelFrame.Region7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Step
variable {cfg : Cfg sig Λ₀} (W : Dev nD → Valuation τ sig (Elt F))
  (d : (c : Dev nD) → Dat τ (Elt F) Unit ℕ (UR sig nD τ) ℕ cfg c) (c : Dev nD)

/-- The buffers after a call entered at `W`: the arrays its windows name at their final contents, every other buffer as entered. -/
def step : Valuation τ sig (Elt F) :=
  Pipeline.withArrays cfg.spec c (W c) fun w => (d c).arrAt w cfg.N

theorem step_arr (hinj : Function.Injective (Pipeline.arrRef cfg.spec)) (w : Fin cfg.W) :
    step W d c (Proc.devRef .tc (Pipeline.arrRef cfg.spec w)) = (d c).arrAt w cfg.N :=
  Pipeline.withArrays_arr cfg.spec hinj c _ _ w

theorem step_of_ne (b : Ref sig .tc) (hb : ∀ w, Pipeline.arrRef cfg.spec w ≠ b) :
    step W d c (Proc.devRef .tc b) = W c (Proc.devRef .tc b) :=
  Pipeline.withArrays_of_ne cfg.spec c _ _ b hb

/-- A buffer that is no output array of the call is left as found: an input window's array is never written. -/
theorem step_keep (hinj : Function.Injective (Pipeline.arrRef cfg.spec))
    (hA : ∀ w, (d c).A w = W c (Proc.devRef .tc (Pipeline.arrRef cfg.spec w))) (r : Ref sig .tc)
    (hin : ∀ w, Pipeline.arrRef cfg.spec w = r → (cfg.win w).isOut = false) :
    step W d c (Proc.devRef .tc r) = W c (Proc.devRef .tc r) := by
  by_cases h : ∃ w, Pipeline.arrRef cfg.spec w = r
  · obtain ⟨w, rfl⟩ := h
    exact (step_arr W d c hinj w).trans (((d c).arrAt_in w (hin w rfl) _).trans (hA w))
  · exact step_of_ne W d c r fun w e => h ⟨w, e⟩

end Step

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := step (W1 m ρ) (dat0 (V1 m ρ))
abbrev V2 : (c : Dev nD) → (b : Ref sig .tc) → Buf (Elt F) ((c : Thread nD τ).loc b) := fun c b => W2 m ρ c b
def W3 : Dev nD → Valuation τ sig (Elt F) := step (W2 m ρ) (dat1 (V2 m ρ))
abbrev V3 : (c : Dev nD) → (b : Ref sig .tc) → Buf (Elt F) ((c : Thread nD τ).loc b) := fun c b => W3 m ρ c b
def W4 : Dev nD → Valuation τ sig (Elt F) := step (W3 m ρ) (dat2 (V3 m ρ))
abbrev V4 : (c : Dev nD) → (b : Ref sig .tc) → Buf (Elt F) ((c : Thread nD τ).loc b) := fun c b => W4 m ρ c b
def W5 : Dev nD → Valuation τ sig (Elt F) := step (W4 m ρ) (dat3 (V4 m ρ))
abbrev V5 : (c : Dev nD) → (b : Ref sig .tc) → Buf (Elt F) ((c : Thread nD τ).loc b) := fun c b => W5 m ρ c b
def W6 : Dev nD → Valuation τ sig (Elt F) := step (W5 m ρ) (dat4 (V5 m ρ))
abbrev V6 : (c : Dev nD) → (b : Ref sig .tc) → Buf (Elt F) ((c : Thread nD τ).loc b) := fun c b => W6 m ρ c b
def W7 : Dev nD → Valuation τ sig (Elt F) := step (W6 m ρ) (dat5 (V6 m ρ))
abbrev W8 : Dev nD → Valuation τ sig (Elt F) := fun c => StableHlo.after hostOps6 (W7 m ρ c)
abbrev V8 : (c : Dev nD) → (b : Ref sig .tc) → Buf (Elt F) ((c : Thread nD τ).loc b) := fun c b => W8 m ρ c b
def W9 : Dev nD → Valuation τ sig (Elt F) := step (W8 m ρ) (dat6 (V8 m ρ))
abbrev W10 : Dev nD → Valuation τ sig (Elt F) := fun c => StableHlo.after hostOps7 (W9 m ρ c)
abbrev W11 : Dev nD → Valuation τ sig (Elt F) := fun c => StableHlo.after hostOps7_1 (W10 m ρ c)
abbrev W12 : Dev nD → Valuation τ sig (Elt F) := fun c => StableHlo.after hostOps7_2 (W11 m ρ c)
abbrev V12 : (c : Dev nD) → (b : Ref sig .tc) → Buf (Elt F) ((c : Thread nD τ).loc b) := fun c b => W12 m ρ c b
def W13 : Dev nD → Valuation τ sig (Elt F) := step (W12 m ρ) (dat7 (V12 m ρ))
abbrev W14 : Dev nD → Valuation τ sig (Elt F) := fun c => StableHlo.after hostOps8 (W13 m ρ c)

end Cert.Kernel.Hand

end
-- ==== Proof.KernelFrame.Run.lean ====
import proofs.«142868_j70317204570386_1_alg».proof.Proof.KernelFrame.Fold
import proofs.«142868_j70317204570386_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Call `cfg` has no output window on `r`. -/
abbrev keeps (cfg : Cfg sig Λ₀) (r : Ref sig .tc) : Prop := ∀ w, Pipeline.arrRef cfg.spec w = r → (cfg.win w).isOut = false

/-- No host operation writes `r` and no call has it as an output array. -/
abbrev Kept (r : Ref sig .tc) : Prop :=
  r ∉ hostOps0_W ∧ r ∉ hostOps6_W ∧ r ∉ hostOps7_W ∧ r ∉ hostOps7_1_W ∧ r ∉ hostOps7_2_W ∧ r ∉ hostOps8_W
    ∧ keeps cfg0 r ∧ keeps cfg1 r ∧ keeps cfg2 r ∧ keeps cfg3 r ∧ keeps cfg4 r ∧ keeps cfg5 r ∧ keeps cfg6 r ∧ keeps cfg7 r

/-- Such a buffer ends as launched: the fold walks back to the launch item by item. -/
theorem W14_keep (c : Dev nD) (r : Ref sig .tc) (h : Kept r) : W14 m ρ c (Proc.devRef .tc r) = m ((c : Thread nD τ).loc r) := by
  obtain ⟨a0, a6, a7, a71, a72, a8, k0, k1, k2, k3, k4, k5, k6, k7⟩ := h
  exact (StableHlo.after_of_writes_sub hostOps8 _ hostOps8_writes a8).trans <|
    (step_keep _ _ c launch7.win.arr_inj (fun _ => rfl) r k7).trans <|
    (StableHlo.after_of_writes_sub hostOps7_2 _ hostOps7_2_writes a72).trans <|
    (StableHlo.after_of_writes_sub hostOps7_1 _ hostOps7_1_writes a71).trans <|
    (StableHlo.after_of_writes_sub hostOps7 _ hostOps7_writes a7).trans <|
    (step_keep _ _ c launch6.win.arr_inj (fun _ => rfl) r k6).trans <|
    (StableHlo.after_of_writes_sub hostOps6 _ hostOps6_writes a6).trans <|
    (step_keep _ _ c launch5.win.arr_inj (fun _ => rfl) r k5).trans <|
    (step_keep _ _ c launch4.win.arr_inj (fun _ => rfl) r k4).trans <|
    (step_keep _ _ c launch3.win.arr_inj (fun _ => rfl) r k3).trans <|
    (step_keep _ _ c launch2.win.arr_inj (fun _ => rfl) r k2).trans <|
    (step_keep _ _ c launch1.win.arr_inj (fun _ => rfl) r k1).trans <|
    (step_keep _ _ c launch0.win.arr_inj (fun _ => rfl) r k0).trans <|
    (StableHlo.after_of_writes_sub hostOps0 _ hostOps0_writes a0)

abbrev adm : (p : Fin 8) → (pcfgs (F := F) p).Adm := fun p => (cfgs p).toPCfg_adm
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V8 m ρ) c
  | ⟨7, _⟩ => fun c => dat7 (V12 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W14 m ρ c) ∗ ∃ r, prngReg c r)

set_option backward.isDefEq.respectTransparency.types false in
/-- Call `p` as an item of @main: entered with every unscoped buffer at `W`, left with them at `W' = step W`. -/
def mkReg (p : Fin 8) (lf : Pipeline.LaunchFacts (nD := nD) (τ := τ) cfgs p) (W W' : Dev nD → Valuation τ sig (Elt F))
    (hW' : ∀ c, W' c = step W (pdats m ρ p) c)
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c i, (pdats m ρ p c).Φ i = Pipeline.ΦA (cfgs p).spec c)
    (hA : ∀ c w, (pdats m ρ p c).A w = W c (Proc.devRef .tc (Pipeline.arrRef (cfgs p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => W c b) (fun b => W' c b) ((pdats m ρ p c).arrAt · (cfgs p).N)
      (fun w => by rw [hW']; exact (step_arr _ _ c lf.win.arr_inj w).symm)
      (fun b hb => by rw [hW']; exact step_of_ne _ _ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (mkReg m ρ 0 launch0 (W1 m ρ) (W2 m ρ) (fun _ => rfl) (body_obligation0 (V1 m ρ))
      (fun _ _ => rfl) (fun _ _ => rfl) (fun _ _ => rfl) (fun _ _ => rfl) (fun _ _ => rfl)),
    .region (mkReg m ρ 1 launch1 (W2 m ρ) (W3 m ρ) (fun _ => rfl) (body_obligation1 (V2 m ρ))
      (fun _ _ => rfl) (fun _ _ => rfl) (fun _ _ => rfl) (fun _ _ => rfl) (fun _ _ => rfl)),
    .region (mkReg m ρ 2 launch2 (W3 m ρ) (W4 m ρ) (fun _ => rfl) (body_obligation2 (V3 m ρ))
      (fun _ _ => rfl) (fun _ _ => rfl) (fun _ _ => rfl) (fun _ _ => rfl) (fun _ _ => rfl)),
    .region (mkReg m ρ 3 launch3 (W4 m ρ) (W5 m ρ) (fun _ => rfl) (body_obligation3 (V4 m ρ))
      (fun _ _ => rfl) (fun _ _ => rfl) (fun _ _ => rfl) (fun _ _ => rfl) (fun _ _ => rfl)),
    .region (mkReg m ρ 4 launch4 (W5 m ρ) (W6 m ρ) (fun _ => rfl) (body_obligation4 (V5 m ρ))
      (fun _ _ => rfl) (fun _ _ => rfl) (fun _ _ => rfl) (fun _ _ => rfl) (fun _ _ => rfl)),
    .region (mkReg m ρ 5 launch5 (W6 m ρ) (W7 m ρ) (fun _ => rfl) (body_obligation5 (V6 m ρ))
      (fun _ _ => rfl) (fun _ _ => rfl) (fun _ _ => rfl) (fun _ _ => rfl) (fun _ _ => rfl)),
    .host (hseg hostOps6 hostOps6_sub hostOps6_fresh (W7 m ρ)),
    .region (mkReg m ρ 6 launch6 (W8 m ρ) (W9 m ρ) (fun _ => rfl) (body_obligation6 (V8 m ρ))
      (fun _ _ => rfl) (fun _ _ => rfl) (fun _ _ => rfl) (fun _ _ => rfl) (fun _ _ => rfl)),
    .host (hseg hostOps7 hostOps7_sub hostOps7_fresh (W9 m ρ)),
    .host (hseg hostOps7_1 hostOps7_1_sub hostOps7_1_fresh (W10 m ρ)),
    .host (hseg hostOps7_2 hostOps7_2_sub hostOps7_2_fresh (W11 m ρ)),
    .region (mkReg m ρ 7 launch7 (W12 m ρ) (W13 m ρ) (fun _ => rfl) (body_obligation7 (V12 m ρ))
      (fun _ _ => rfl) (fun _ _ => rfl) (fun _ _ => rfl) (fun _ _ => rfl) (fun _ _ => rfl)),
    .host (hseg hostOps8 hostOps8_sub hostOps8_fresh (W13 m ρ)) ]
theorem main_run (c : Dev nD) : main (F := F) c = Pipeline.Seg.run (segs m ρ) := (main_chain c).trans (by chain_rfl)
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W14 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- A final memory that holds every unscoped buffer at the fold's last contents holds each argument as launched. -/
theorem args_end (c : Dev nD) (mem' : (ℓ : Loc nD τ sig) → Buf (Elt F) ℓ)
    (h : ∀ b ∈ Pipeline.ucRefs τ sig, mem' (((c : Thread nD τ)).1, b) = W14 m ρ c b) :
    mem' ((c.tc : Thread nD τ).loc main_arg0) = m ((c.tc : Thread nD τ).loc main_arg0)
      ∧ mem' ((c.tc : Thread nD τ).loc main_arg1) = m ((c.tc : Thread nD τ).loc main_arg1)
      ∧ mem' ((c.tc : Thread nD τ).loc main_arg2) = m ((c.tc : Thread nD τ).loc main_arg2)
      ∧ mem' ((c.tc : Thread nD τ).loc main_arg3) = m ((c.tc : Thread nD τ).loc main_arg3)
      ∧ mem' ((c.tc : Thread nD τ).loc main_arg4) = m ((c.tc : Thread nD τ).loc main_arg4)
      ∧ mem' ((c.tc : Thread nD τ).loc main_arg5) = m ((c.tc : Thread nD τ).loc main_arg5)
      ∧ mem' ((c.tc : Thread nD τ).loc main_arg6) = m ((c.tc : Thread nD τ).loc main_arg6)
      ∧ mem' ((c.tc : Thread nD τ).loc main_arg7) = m ((c.tc : Thread nD τ).loc main_arg7) :=
  have k (r : Ref sig .tc) (hs : ¬ (Proc.devRef .tc r : DevRef τ sig).isScoped) (hk : Kept r) :
      mem' ((c.tc : Thread nD τ).loc r) = m ((c.tc : Thread nD τ).loc r) := (h _ (mem_uc r hs)).trans (W14_keep m ρ c r hk)
  ⟨k _ (by decide) (by decide), k _ (by decide) (by decide), k _ (by decide) (by decide), k _ (by decide) (by decide), k _ (by decide) (by decide), k _ (by decide) (by decide), k _ (by decide) (by decide), k _ (by decide) (by decide)⟩

end Cert.Kernel.Hand

end
-- ==== Proof.KernelIdealFrame.Hops.lean ====
import proofs.«142868_j70317204570386_1_alg».proof.Proof.Gen.KernelIdeal.Launch
import proofs.«142868_j70317204570386_1_alg».proof.Proof.Gen.KernelIdeal.Skeleton
import proofs.«142868_j70317204570386_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S1x2048x1024 := Rect.unit (s := S1x2048x1024) ![0, 0, 0] S1x2048x1024.size inb_S1x2048x1024_S1x2048x1024_0_0_0
abbrev r0_1 : Rect S1x32x2048 := Rect.unit (s := S1x32x2048) ![0, 0, 0] S1x32x2048.size inb_S1x32x2048_S1x32x2048_0_0_0
abbrev r0_2 : Rect S1x32x1024 := Rect.unit (s := S1x32x1024) ![0, 0, 0] S1x32x1024.size inb_S1x32x1024_S1x32x1024_0_0_0

def out0_2 (x0 : Vec F S1x2048x1024 .f32) (x1 : Vec F S1x32x2048 .f32) : Vec F S1x32x1024 .f32 :=
  View.canon [⟨r0_2, k0_pay1 (View.ld x0 r0_0) (View.ld x1 r0_1)⟩]

set_option maxHeartbeats 1000000 in
-- The one body of all six hop calls: it reads both input blocks whole and covers the output block with one store of their product; two propositions are carried through unread.
theorem hop_body (c : Dev nD) (i : grid0.Coords) (a0 : Memref sig .tc .vmem S1x2048x1024 .f32) (h0 : a0.IsWhole) (a1 : Memref sig .tc .vmem S1x32x2048 .f32) (h1 : a1.IsWhole) (a2 : Memref sig .tc .vmem S1x32x1024 .f32) (h2 : a2.IsWhole)
    (x0 : Vec F S1x2048x1024 .f32) (x1 : Vec F S1x32x2048 .f32) (P Q : sProp 𝕄)
    {b0 : Vec F S1x2048x1024 .f32 → Vec F S1x2048x1024 .f32} {b1 : Vec F S1x32x2048 .f32 → Vec F S1x32x2048 .f32} {b2 : Vec F S1x32x1024 .f32 → Vec F S1x32x1024 .f32}
    {y2 : Vec F S1x32x1024 .f32} (e0 : ∀ d, b0 d = x0) (e1 : ∀ d, b1 d = x1) (g2 : y2 = out0_2 x0 x1) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)))
      ⊢ wp frame (wpE (defs₀ (F := F)) Variants.none c none) Set.univ (cc0__nconv_kernel i a0 h0 a1 h1 a2 h2) fun _ =>
        iprop(P ∗ Q ∗ owns (c : Thread nD τ) a0 fullShare x0 ∗ owns (c : Thread nD τ) a1 fullShare x1 ∗ owns (c : Thread nD τ) a2 fullShare y2) := by
  subst g2
  simp only [e0, e1, cc0__nconv_kernel_eq_skeleton]; unfold cc0__nconv_kernel_skel
  unfold owns
  iintro ⟨HP, HQ, ⟨%d0, %f0, %hf0, H0⟩, ⟨%d1, %f1, %hf1, H1⟩, ⟨%d2, %f2, -, H2⟩⟩
  subst hf0 hf1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1x32x1024.size (by rfl))

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  exact hop_body c (grid0.coords t) _ (stage_whole0 0 _) _ (stage_whole0 1 _) _ (stage_whole0 2 _) _ _ _ _
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t) (after0_2 V c t)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out0_2 (iblk1 V c 0 t) (iblk1 V c 1 t)
  Φ _ := Pipeline.ΦA spec1 c
  q _ := fullShare
  owed _ := 0

theorem after1_2 (c : Dev nD) (t : Fin cfg1.N) : (dat1 V c).after 2 t = out0_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  exact hop_body c (grid1.coords t) _ (stage_whole1 0 _) _ (stage_whole1 1 _) _ (stage_whole1 2 _) _ _ _ _
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t) (after1_2 V c t)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out0_2 (iblk2 V c 0 t) (iblk2 V c 1 t)
  Φ _ := Pipeline.ΦA spec2 c
  q _ := fullShare
  owed _ := 0

theorem after2_2 (c : Dev nD) (t : Fin cfg2.N) : (dat2 V c).after 2 t = out0_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  exact hop_body c (grid2.coords t) _ (stage_whole2 0 _) _ (stage_whole2 1 _) _ (stage_whole2 2 _) _ _ _ _
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t) (after2_2 V c t)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q _ := fullShare
  owed _ := 0

theorem after3_2 (c : Dev nD) (t : Fin cfg3.N) : (dat3 V c).after 2 t = out0_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  exact hop_body c (grid3.coords t) _ (stage_whole3 0 _) _ (stage_whole3 1 _) _ (stage_whole3 2 _) _ _ _ _
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t) (after3_2 V c t)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out0_2 (iblk4 V c 0 t) (iblk4 V c 1 t)
  Φ _ := Pipeline.ΦA spec4 c
  q _ := fullShare
  owed _ := 0

theorem after4_2 (c : Dev nD) (t : Fin cfg4.N) : (dat4 V c).after 2 t = out0_2 (iblk4 V c 0 t) (iblk4 V c 1 t) := by dsimp only [dat4]

theorem body_obligation4 (c : Dev nD) : BodyObligation (dat4 (F := F) V c) (defs₀ (F := F)) Variants.none () Set.univ := fun t => by
  rw [bigSep_W4, bigSep_W4]
  exact hop_body c (grid4.coords t) _ (stage_whole4 0 _) _ (stage_whole4 1 _) _ (stage_whole4 2 _) _ _ _ _
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t) (after4_2 V c t)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out0_2 (iblk5 V c 0 t) (iblk5 V c 1 t)
  Φ _ := Pipeline.ΦA spec5 c
  q _ := fullShare
  owed _ := 0

theorem after5_2 (c : Dev nD) (t : Fin cfg5.N) : (dat5 V c).after 2 t = out0_2 (iblk5 V c 0 t) (iblk5 V c 1 t) := by dsimp only [dat5]

theorem body_obligation5 (c : Dev nD) : BodyObligation (dat5 (F := F) V c) (defs₀ (F := F)) Variants.none () Set.univ := fun t => by
  rw [bigSep_W5, bigSep_W5]
  exact hop_body c (grid5.coords t) _ (stage_whole5 0 _) _ (stage_whole5 1 _) _ (stage_whole5 2 _) _ _ _ _
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t) (after5_2 V c t)

end Region

end Cert.KernelIdeal.Hand

end
-- ==== Proof.KernelIdealFrame.Region6.lean ====
import proofs.«142868_j70317204570386_1_alg».proof.Proof.Gen.KernelIdeal.Launch
import proofs.«142868_j70317204570386_1_alg».proof.Proof.Gen.KernelIdeal.Skeleton
import proofs.«142868_j70317204570386_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x224x2048 := Rect.unit (s := S1x224x2048) ![0, 0, 0] S1x224x2048.size inb_S1x224x2048_S1x224x2048_0_0_0
abbrev r6_1 : Rect S64x224 := Rect.unit (s := S64x224) ![0, 0] S64x224.size inb_S64x224_S64x224_0_0
abbrev r6_2 : Rect S64x1 := Rect.unit (s := S64x1) ![0, 0] S64x1.size inb_S64x1_S64x1_0_0
abbrev r6_3 : Rect S1x64x2048 := Rect.unit (s := S1x64x2048) ![0, 0, 0] S1x64x2048.size inb_S1x64x2048_S1x64x2048_0_0_0

def out6_3 (x0 : Vec F S1x224x2048 .f32) (x1 : Vec F S64x224 .f32) (x2 : Vec F S64x1 .f32) : Vec F S1x64x2048 .f32 :=
  View.canon [⟨r6_3, k6_pay1 (View.ld x0 r6_0) (View.ld x1 r6_1) (View.ld x2 r6_2)⟩]

set_option maxHeartbeats 1000000 in
-- The body reads its three input blocks whole and covers the output block with one store; two propositions are carried through unread.
theorem body6 (c : Dev nD) (i : grid6.Coords) (a0 : Memref sig .tc .vmem S1x224x2048 .f32) (h0 : a0.IsWhole) (a1 : Memref sig .tc .vmem S64x224 .f32) (h1 : a1.IsWhole) (a2 : Memref sig .tc .vmem S64x1 .f32) (h2 : a2.IsWhole) (a3 : Memref sig .tc .vmem S1x64x2048 .f32) (h3 : a3.IsWhole)
    (x0 : Vec F S1x224x2048 .f32) (x1 : Vec F S64x224 .f32) (x2 : Vec F S64x1 .f32) (P Q : sProp 𝕄)
    {b0 : Vec F S1x224x2048 .f32 → Vec F S1x224x2048 .f32} {b1 : Vec F S64x224 .f32 → Vec F S64x224 .f32} {b2 : Vec F S64x1 .f32 → Vec F S64x1 .f32} {b3 : Vec F S1x64x2048 .f32 → Vec F S1x64x2048 .f32}
    {y3 : Vec F S1x64x2048 .f32} (e0 : ∀ d, b0 d = x0) (e1 : ∀ d, b1 d = x1) (e2 : ∀ d, b2 d = x2) (g3 : y3 = out6_3 x0 x1 x2) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)))
      ⊢ wp frame (wpE (defs₀ (F := F)) Variants.none c none) Set.univ (cc6__conv1x1_kernel i a0 h0 a1 h1 a2 h2 a3 h3) fun _ =>
        iprop(P ∗ Q ∗ owns (c : Thread nD τ) a0 fullShare x0 ∗ owns (c : Thread nD τ) a1 fullShare x1 ∗ owns (c : Thread nD τ) a2 fullShare x2 ∗ owns (c : Thread nD τ) a3 fullShare y3) := by
  subst g3
  simp only [e0, e1, e2, cc6__conv1x1_kernel_eq_skeleton]; unfold cc6__conv1x1_kernel_skel
  unfold owns
  iintro ⟨HP, HQ, ⟨%d0, %f0, %hf0, H0⟩, ⟨%d1, %f1, %hf1, H1⟩, ⟨%d2, %f2, %hf2, H2⟩, ⟨%d3, %f3, -, H3⟩⟩
  subst hf0 hf1 hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x64x2048.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) : (dat6 V c).after 3 t = out6_3 (iblk6 V c 0 t) (iblk6 V c 1 t) (iblk6 V c 2 t) := by dsimp only [dat6]

theorem body_obligation6 (c : Dev nD) : BodyObligation (dat6 (F := F) V c) (defs₀ (F := F)) Variants.none () Set.univ := fun t => by
  rw [bigSep_W6, bigSep_W6]
  exact body6 c (grid6.coords t) _ (stage_whole6 0 _) _ (stage_whole6 1 _) _ (stage_whole6 2 _) _ (stage_whole6 3 _) _ _ _ _ _
    ((dat6 V c).before_in_eq_fetched 0 rfl (fun _ => rfl) (fun _ _ _ => rfl) (fun _ => rfl) t)
    ((dat6 V c).before_in_eq_fetched 1 rfl (fun _ => rfl) (fun _ _ _ => rfl) (fun _ => rfl) t)
    ((dat6 V c).before_in_eq_fetched 2 rfl (fun _ => rfl) (fun _ _ _ => rfl) (fun _ => rfl) t) (after6_3 V c t)

end Region

end Cert.KernelIdeal.Hand

end
-- ==== Proof.KernelIdealFrame.Region7.lean ====
import proofs.«142868_j70317204570386_1_alg».proof.Proof.Gen.KernelIdeal.Launch
import proofs.«142868_j70317204570386_1_alg».proof.Proof.Gen.KernelIdeal.Skeleton
import proofs.«142868_j70317204570386_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1x64x2048 := Rect.unit (s := S1x64x2048) ![0, 0, 0] S1x64x2048.size inb_S1x64x2048_S1x64x2048_0_0_0
abbrev r7_1 : Rect S64x1 := Rect.unit (s := S64x1) ![0, 0] S64x1.size inb_S64x1_S64x1_0_0

def out7_5 (x0 : Vec F S1x64x2048 .f32) (x1 x2 x3 x4 : Vec F S64x1 .f32) : Vec F S1x64x2048 .f32 :=
  View.canon [⟨r7_0, k7_pay1 (View.ld x0 r7_0) (View.ld x2 r7_1) (View.ld x1 r7_1) (View.ld x3 r7_1) (View.ld x4 r7_1)⟩]

set_option maxHeartbeats 1000000 in
-- The body reads its five input blocks whole and covers the output block with one store; two propositions are carried through unread.
theorem body7 (c : Dev nD) (i : grid7.Coords) (a0 : Memref sig .tc .vmem S1x64x2048 .f32) (h0 : a0.IsWhole) (a1 : Memref sig .tc .vmem S64x1 .f32) (h1 : a1.IsWhole) (a2 : Memref sig .tc .vmem S64x1 .f32) (h2 : a2.IsWhole) (a3 : Memref sig .tc .vmem S64x1 .f32) (h3 : a3.IsWhole) (a4 : Memref sig .tc .vmem S64x1 .f32) (h4 : a4.IsWhole) (a5 : Memref sig .tc .vmem S1x64x2048 .f32) (h5 : a5.IsWhole)
    (x0 : Vec F S1x64x2048 .f32) (x1 x2 x3 x4 : Vec F S64x1 .f32) (P Q : sProp 𝕄)
    {b0 b5 : Vec F S1x64x2048 .f32 → Vec F S1x64x2048 .f32} {b1 b2 b3 b4 : Vec F S64x1 .f32 → Vec F S64x1 .f32} {y5 : Vec F S1x64x2048 .f32}
    (e0 : ∀ d, b0 d = x0) (e1 : ∀ d, b1 d = x1) (e2 : ∀ d, b2 d = x2) (e3 : ∀ d, b3 d = x3) (e4 : ∀ d, b4 d = x4) (g5 : y5 = out7_5 x0 x1 x2 x3 x4) :
    iprop(P ∗ Q ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)))
      ⊢ wp frame (wpE (defs₀ (F := F)) Variants.none c none) Set.univ (cc7__bn_kernel i a0 h0 a1 h1 a2 h2 a3 h3 a4 h4 a5 h5) fun _ =>
        iprop(P ∗ Q ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare y5) := by
  subst g5
  simp only [e0, e1, e2, e3, e4, cc7__bn_kernel_eq_skeleton]; unfold cc7__bn_kernel_skel
  unfold owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S1x64x2048.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem body_obligation7 (c : Dev nD) : BodyObligation (dat7 (F := F) V c) (defs₀ (F := F)) Variants.none () Set.univ := fun t => by
  rw [bigSep_W7, bigSep_W7]
  exact body7 c (grid7.coords t) _ (stage_whole7 0 _) _ (stage_whole7 1 _) _ (stage_whole7 2 _) _ (stage_whole7 3 _) _ (stage_whole7 4 _) _ (stage_whole7 5 _) _ _ _ _ _ _ _
    ((dat7 V c).before_in_eq_fetched 0 rfl (fun _ => rfl) (fun _ _ _ => rfl) (fun _ => rfl) t)
    ((dat7 V c).before_in_eq_fetched 1 rfl (fun _ => rfl) (fun _ _ _ => rfl) (fun _ => rfl) t)
    ((dat7 V c).before_in_eq_fetched 2 rfl (fun _ => rfl) (fun _ _ _ => rfl) (fun _ => rfl) t)
    ((dat7 V c).before_in_eq_fetched 3 rfl (fun _ => rfl) (fun _ _ _ => rfl) (fun _ => rfl) t)
    ((dat7 V c).before_in_eq_fetched 4 rfl (fun _ => rfl) (fun _ _ _ => rfl) (fun _ => rfl) t) (after7_5 V c t)

end Region

end Cert.KernelIdeal.Hand

end
-- ==== Proof.KernelIdealFrame.Fold.lean ====
import proofs.«142868_j70317204570386_1_alg».proof.Proof.KernelIdealFrame.Hops
import proofs.«142868_j70317204570386_1_alg».proof.Proof.KernelIdealFrame.Region6
import proofs.«142868_j70317204570386_1_alg».proof.Proof.KernelIdealFrame.Region7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Step
variable {cfg : Cfg sig Λ₀} (W : Dev nD → Valuation τ sig (Elt F))
  (d : (c : Dev nD) → Dat τ (Elt F) Unit ℕ (UR sig nD τ) ℕ cfg c) (c : Dev nD)

/-- The buffers after a call entered at `W`: the arrays its windows name at their final contents, every other buffer as entered. -/
def step : Valuation τ sig (Elt F) :=
  Pipeline.withArrays cfg.spec c (W c) fun w => (d c).arrAt w cfg.N

theorem step_arr (hinj : Function.Injective (Pipeline.arrRef cfg.spec)) (w : Fin cfg.W) :
    step W d c (Proc.devRef .tc (Pipeline.arrRef cfg.spec w)) = (d c).arrAt w cfg.N :=
  Pipeline.withArrays_arr cfg.spec hinj c _ _ w

theorem step_of_ne (b : Ref sig .tc) (hb : ∀ w, Pipeline.arrRef cfg.spec w ≠ b) :
    step W d c (Proc.devRef .tc b) = W c (Proc.devRef .tc b) :=
  Pipeline.withArrays_of_ne cfg.spec c _ _ b hb

/-- A buffer that is no output array of the call is left as found: an input window's array is never written. -/
theorem step_keep (hinj : Function.Injective (Pipeline.arrRef cfg.spec))
    (hA : ∀ w, (d c).A w = W c (Proc.devRef .tc (Pipeline.arrRef cfg.spec w))) (r : Ref sig .tc)
    (hin : ∀ w, Pipeline.arrRef cfg.spec w = r → (cfg.win w).isOut = false) :
    step W d c (Proc.devRef .tc r) = W c (Proc.devRef .tc r) := by
  by_cases h : ∃ w, Pipeline.arrRef cfg.spec w = r
  · obtain ⟨w, rfl⟩ := h
    exact (step_arr W d c hinj w).trans (((d c).arrAt_in w (hin w rfl) _).trans (hA w))
  · exact step_of_ne W d c r fun w e => h ⟨w, e⟩

end Step

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := step (W1 m ρ) (dat0 (V1 m ρ))
abbrev V2 : (c : Dev nD) → (b : Ref sig .tc) → Buf (Elt F) ((c : Thread nD τ).loc b) := fun c b => W2 m ρ c b
def W3 : Dev nD → Valuation τ sig (Elt F) := step (W2 m ρ) (dat1 (V2 m ρ))
abbrev V3 : (c : Dev nD) → (b : Ref sig .tc) → Buf (Elt F) ((c : Thread nD τ).loc b) := fun c b => W3 m ρ c b
def W4 : Dev nD → Valuation τ sig (Elt F) := step (W3 m ρ) (dat2 (V3 m ρ))
abbrev V4 : (c : Dev nD) → (b : Ref sig .tc) → Buf (Elt F) ((c : Thread nD τ).loc b) := fun c b => W4 m ρ c b
def W5 : Dev nD → Valuation τ sig (Elt F) := step (W4 m ρ) (dat3 (V4 m ρ))
abbrev V5 : (c : Dev nD) → (b : Ref sig .tc) → Buf (Elt F) ((c : Thread nD τ).loc b) := fun c b => W5 m ρ c b
def W6 : Dev nD → Valuation τ sig (Elt F) := step (W5 m ρ) (dat4 (V5 m ρ))
abbrev V6 : (c : Dev nD) → (b : Ref sig .tc) → Buf (Elt F) ((c : Thread nD τ).loc b) := fun c b => W6 m ρ c b
def W7 : Dev nD → Valuation τ sig (Elt F) := step (W6 m ρ) (dat5 (V6 m ρ))
abbrev W8 : Dev nD → Valuation τ sig (Elt F) := fun c => StableHlo.after hostOps6 (W7 m ρ c)
abbrev V8 : (c : Dev nD) → (b : Ref sig .tc) → Buf (Elt F) ((c : Thread nD τ).loc b) := fun c b => W8 m ρ c b
def W9 : Dev nD → Valuation τ sig (Elt F) := step (W8 m ρ) (dat6 (V8 m ρ))
abbrev W10 : Dev nD → Valuation τ sig (Elt F) := fun c => StableHlo.after hostOps7 (W9 m ρ c)
abbrev W11 : Dev nD → Valuation τ sig (Elt F) := fun c => StableHlo.after hostOps7_1 (W10 m ρ c)
abbrev W12 : Dev nD → Valuation τ sig (Elt F) := fun c => StableHlo.after hostOps7_2 (W11 m ρ c)
abbrev V12 : (c : Dev nD) → (b : Ref sig .tc) → Buf (Elt F) ((c : Thread nD τ).loc b) := fun c b => W12 m ρ c b
def W13 : Dev nD → Valuation τ sig (Elt F) := step (W12 m ρ) (dat7 (V12 m ρ))
abbrev W14 : Dev nD → Valuation τ sig (Elt F) := fun c => StableHlo.after hostOps8 (W13 m ρ c)

end Cert.KernelIdeal.Hand

end
-- ==== Proof.KernelIdealFrame.Run.lean ====
import proofs.«142868_j70317204570386_1_alg».proof.Proof.KernelIdealFrame.Fold
import proofs.«142868_j70317204570386_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Call `cfg` has no output window on `r`. -/
abbrev keeps (cfg : Cfg sig Λ₀) (r : Ref sig .tc) : Prop := ∀ w, Pipeline.arrRef cfg.spec w = r → (cfg.win w).isOut = false

/-- No host operation writes `r` and no call has it as an output array. -/
abbrev Kept (r : Ref sig .tc) : Prop :=
  r ∉ hostOps0_W ∧ r ∉ hostOps6_W ∧ r ∉ hostOps7_W ∧ r ∉ hostOps7_1_W ∧ r ∉ hostOps7_2_W ∧ r ∉ hostOps8_W
    ∧ keeps cfg0 r ∧ keeps cfg1 r ∧ keeps cfg2 r ∧ keeps cfg3 r ∧ keeps cfg4 r ∧ keeps cfg5 r ∧ keeps cfg6 r ∧ keeps cfg7 r

/-- Such a buffer ends as launched: the fold walks back to the launch item by item. -/
theorem W14_keep (c : Dev nD) (r : Ref sig .tc) (h : Kept r) : W14 m ρ c (Proc.devRef .tc r) = m ((c : Thread nD τ).loc r) := by
  obtain ⟨a0, a6, a7, a71, a72, a8, k0, k1, k2, k3, k4, k5, k6, k7⟩ := h
  exact (StableHlo.after_of_writes_sub hostOps8 _ hostOps8_writes a8).trans <|
    (step_keep _ _ c launch7.win.arr_inj (fun _ => rfl) r k7).trans <|
    (StableHlo.after_of_writes_sub hostOps7_2 _ hostOps7_2_writes a72).trans <|
    (StableHlo.after_of_writes_sub hostOps7_1 _ hostOps7_1_writes a71).trans <|
    (StableHlo.after_of_writes_sub hostOps7 _ hostOps7_writes a7).trans <|
    (step_keep _ _ c launch6.win.arr_inj (fun _ => rfl) r k6).trans <|
    (StableHlo.after_of_writes_sub hostOps6 _ hostOps6_writes a6).trans <|
    (step_keep _ _ c launch5.win.arr_inj (fun _ => rfl) r k5).trans <|
    (step_keep _ _ c launch4.win.arr_inj (fun _ => rfl) r k4).trans <|
    (step_keep _ _ c launch3.win.arr_inj (fun _ => rfl) r k3).trans <|
    (step_keep _ _ c launch2.win.arr_inj (fun _ => rfl) r k2).trans <|
    (step_keep _ _ c launch1.win.arr_inj (fun _ => rfl) r k1).trans <|
    (step_keep _ _ c launch0.win.arr_inj (fun _ => rfl) r k0).trans <|
    (StableHlo.after_of_writes_sub hostOps0 _ hostOps0_writes a0)

abbrev adm : (p : Fin 8) → (pcfgs (F := F) p).Adm := fun p => (cfgs p).toPCfg_adm
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V8 m ρ) c
  | ⟨7, _⟩ => fun c => dat7 (V12 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W14 m ρ c) ∗ ∃ r, prngReg c r)

set_option backward.isDefEq.respectTransparency.types false in
/-- Call `p` as an item of @main: entered with every unscoped buffer at `W`, left with them at `W' = step W`. -/
def mkReg (p : Fin 8) (lf : Pipeline.LaunchFacts (nD := nD) (τ := τ) cfgs p) (W W' : Dev nD → Valuation τ sig (Elt F))
    (hW' : ∀ c, W' c = step W (pdats m ρ p) c)
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c i, (pdats m ρ p c).Φ i = Pipeline.ΦA (cfgs p).spec c)
    (hA : ∀ c w, (pdats m ρ p c).A w = W c (Proc.devRef .tc (Pipeline.arrRef (cfgs p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => W c b) (fun b => W' c b) ((pdats m ρ p c).arrAt · (cfgs p).N)
      (fun w => by rw [hW']; exact (step_arr _ _ c lf.win.arr_inj w).symm)
      (fun b hb => by rw [hW']; exact step_of_ne _ _ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (mkReg m ρ 0 launch0 (W1 m ρ) (W2 m ρ) (fun _ => rfl) (body_obligation0 (V1 m ρ))
      (fun _ _ => rfl) (fun _ _ => rfl) (fun _ _ => rfl) (fun _ _ => rfl) (fun _ _ => rfl)),
    .region (mkReg m ρ 1 launch1 (W2 m ρ) (W3 m ρ) (fun _ => rfl) (body_obligation1 (V2 m ρ))
      (fun _ _ => rfl) (fun _ _ => rfl) (fun _ _ => rfl) (fun _ _ => rfl) (fun _ _ => rfl)),
    .region (mkReg m ρ 2 launch2 (W3 m ρ) (W4 m ρ) (fun _ => rfl) (body_obligation2 (V3 m ρ))
      (fun _ _ => rfl) (fun _ _ => rfl) (fun _ _ => rfl) (fun _ _ => rfl) (fun _ _ => rfl)),
    .region (mkReg m ρ 3 launch3 (W4 m ρ) (W5 m ρ) (fun _ => rfl) (body_obligation3 (V4 m ρ))
      (fun _ _ => rfl) (fun _ _ => rfl) (fun _ _ => rfl) (fun _ _ => rfl) (fun _ _ => rfl)),
    .region (mkReg m ρ 4 launch4 (W5 m ρ) (W6 m ρ) (fun _ => rfl) (body_obligation4 (V5 m ρ))
      (fun _ _ => rfl) (fun _ _ => rfl) (fun _ _ => rfl) (fun _ _ => rfl) (fun _ _ => rfl)),
    .region (mkReg m ρ 5 launch5 (W6 m ρ) (W7 m ρ) (fun _ => rfl) (body_obligation5 (V6 m ρ))
      (fun _ _ => rfl) (fun _ _ => rfl) (fun _ _ => rfl) (fun _ _ => rfl) (fun _ _ => rfl)),
    .host (hseg hostOps6 hostOps6_sub hostOps6_fresh (W7 m ρ)),
    .region (mkReg m ρ 6 launch6 (W8 m ρ) (W9 m ρ) (fun _ => rfl) (body_obligation6 (V8 m ρ))
      (fun _ _ => rfl) (fun _ _ => rfl) (fun _ _ => rfl) (fun _ _ => rfl) (fun _ _ => rfl)),
    .host (hseg hostOps7 hostOps7_sub hostOps7_fresh (W9 m ρ)),
    .host (hseg hostOps7_1 hostOps7_1_sub hostOps7_1_fresh (W10 m ρ)),
    .host (hseg hostOps7_2 hostOps7_2_sub hostOps7_2_fresh (W11 m ρ)),
    .region (mkReg m ρ 7 launch7 (W12 m ρ) (W13 m ρ) (fun _ => rfl) (body_obligation7 (V12 m ρ))
      (fun _ _ => rfl) (fun _ _ => rfl) (fun _ _ => rfl) (fun _ _ => rfl) (fun _ _ => rfl)),
    .host (hseg hostOps8 hostOps8_sub hostOps8_fresh (W13 m ρ)) ]
theorem main_run (c : Dev nD) : main (F := F) c = Pipeline.Seg.run (segs m ρ) := (main_chain c).trans (by chain_rfl)
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W14 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- A final memory that holds every unscoped buffer at the fold's last contents holds each argument as launched. -/
theorem args_end (c : Dev nD) (mem' : (ℓ : Loc nD τ sig) → Buf (Elt F) ℓ)
    (h : ∀ b ∈ Pipeline.ucRefs τ sig, mem' (((c : Thread nD τ)).1, b) = W14 m ρ c b) :
    mem' ((c.tc : Thread nD τ).loc main_arg0) = m ((c.tc : Thread nD τ).loc main_arg0)
      ∧ mem' ((c.tc : Thread nD τ).loc main_arg1) = m ((c.tc : Thread nD τ).loc main_arg1)
      ∧ mem' ((c.tc : Thread nD τ).loc main_arg2) = m ((c.tc : Thread nD τ).loc main_arg2)
      ∧ mem' ((c.tc : Thread nD τ).loc main_arg3) = m ((c.tc : Thread nD τ).loc main_arg3)
      ∧ mem' ((c.tc : Thread nD τ).loc main_arg4) = m ((c.tc : Thread nD τ).loc main_arg4)
      ∧ mem' ((c.tc : Thread nD τ).loc main_arg5) = m ((c.tc : Thread nD τ).loc main_arg5)
      ∧ mem' ((c.tc : Thread nD τ).loc main_arg6) = m ((c.tc : Thread nD τ).loc main_arg6)
      ∧ mem' ((c.tc : Thread nD τ).loc main_arg7) = m ((c.tc : Thread nD τ).loc main_arg7) :=
  have k (r : Ref sig .tc) (hs : ¬ (Proc.devRef .tc r : DevRef τ sig).isScoped) (hk : Kept r) :
      mem' ((c.tc : Thread nD τ).loc r) = m ((c.tc : Thread nD τ).loc r) := (h _ (mem_uc r hs)).trans (W14_keep m ρ c r hk)
  ⟨k _ (by decide) (by decide), k _ (by decide) (by decide), k _ (by decide) (by decide), k _ (by decide) (by decide), k _ (by decide) (by decide), k _ (by decide) (by decide), k _ (by decide) (by decide), k _ (by decide) (by decide)⟩

end Cert.KernelIdeal.Hand

end
-- ==== Proof.KernelTerm.lean ====
import proofs.«142868_j70317204570386_1_alg».proof.KernelIdeal
import proofs.«142868_j70317204570386_1_alg».proof.Proof.Gen.KernelIdeal
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.ValueIdx

def hopK (A : FVec Ideal S8x2048x2048 .f32) (h : FVec Ideal S8x32x2048 .f32) : FVec Ideal S8x32x2048 .f32 :=
  fun i => ∑ v : Fin 2048, h (ix3 (n0 := 8) (n1 := 32) (n2 := 2048) (i 0) (i 1) v) * A (ix3 (n0 := 8) (n1 := 2048) (n2 := 2048) (i 0) v (i 2))

def colK (u : FVec Ideal S64x1 .f32) : FVec Ideal S8x64x2048 .f32 :=
  fun i => u (ix2 (n0 := 64) (n1 := 1) (i 1) 0)

def catK (u0 u1 u2 u3 u4 u5 u6 : FVec Ideal S8x32x2048 .f32) : FVec Ideal S8x224x2048 .f32 :=
  concatenate S8x224x2048 1 [⟨S8x32x2048, u0⟩, ⟨S8x32x2048, u1⟩, ⟨S8x32x2048, u2⟩, ⟨S8x32x2048, u3⟩, ⟨S8x32x2048, u4⟩, ⟨S8x32x2048, u5⟩, ⟨S8x32x2048, u6⟩] concatenates_S8x32x2048_S8x32x2048_S8x32x2048_S8x32x2048_S8x32x2048_S8x32x2048_S8x32x2048_S8x224x2048_d1

def linK (f : FVec Ideal S8x224x2048 .f32) (W : FVec Ideal S64x224 .f32) (b2 : FVec Ideal S64x1 .f32) : FVec Ideal S8x64x2048 .f32 :=
  addf (fun i => ∑ k : Fin 224, W (ix2 (n0 := 64) (n1 := 224) (i 1) k) * f (ix3 (n0 := 8) (n1 := 224) (n2 := 2048) (i 0) k (i 2))) (colK b2)

def bnK (s : FVec Ideal S8x64x2048 .f32) (mean2 var2 gamma2 beta2 : FVec Ideal S64x1 .f32) : FVec Ideal S8x64x2048 .f32 :=
  addf (mulf (mulf (subf s (colK mean2)) (colK (rsqrt (addf var2 (broadcast S64x1 (Scalar.ofBits .f32 0x3727C5AC#32)))))) (colK gamma2)) (colK beta2)

def meanK (s : FVec Ideal S8x64x2048 .f32) : FVec Ideal S64 .f32 :=
  Host.divf (Host.reduceAdd s (constant S_ .f32 0x00000000#32) reducesTo_S8x64x2048_S64_d0_2 h_S_)
    (broadcastInDim S64 ![] bcast_S_S64 (constant S_ .f32 0x46800000#32))

def varTailK (ssq : FVec Ideal S64 .f32) : FVec Ideal S64 .f32 :=
  let v8 : FVec Ideal S_ .f32 := subf (constant S_ .f32 0x46800000#32) (sitofp .f32 (constantI S_ 32 0#32))
  select (broadcastInDim S64 ![] bcast_S_S64 (cmpf .ogt v8 (constant S_ .f32 0x00000000#32)))
    (Host.divf ssq (broadcastInDim S64 ![] bcast_S_S64 v8))
    (broadcastInDim S64 ![] bcast_S_S64 (id (constant S_ .f32 0x7FC00000#32)))

def devSqK (s : FVec Ideal S8x64x2048 .f32) : FVec Ideal S8x64x2048 .f32 :=
  let v0 : FVec Ideal S64 .f32 := Host.reduceAdd s (constant S_ .f32 0x00000000#32) reducesTo_S8x64x2048_S64_d0_2 h_S_
  let v3 : FVec Ideal S1x64x1 .f32 := Host.divf (broadcastInDim S1x64x1 ![1] bcast_S64_S1x64x1_1 v0) (broadcastInDim S1x64x1 ![] bcast_S_S1x64x1 (constant S_ .f32 0x46800000#32))
  let v5 : FVec Ideal S8x64x2048 .f32 := subf s (broadcastInDim S8x64x2048 ![0, 1, 2] bcast_S1x64x1_S8x64x2048_0_1_2 v3)
  mulf v5 v5

def varK (s : FVec Ideal S8x64x2048 .f32) : FVec Ideal S64 .f32 :=
  varTailK (Host.reduceAdd (devSqK s) (constant S_ .f32 0x00000000#32) reducesTo_S8x64x2048_S64_d0_2 h_S_)

def kernelTerm (x : FVec Ideal S8x2048x32 .f32) (A0 A1 A2 : FVec Ideal S8x2048x2048 .f32) (W : FVec Ideal S64x224 .f32)
    (b gamma beta : FVec Ideal S64 .f32) : FVec Ideal S8x2048x64 .f32 :=
  let x0 : FVec Ideal S8x32x2048 .f32 := transpose S8x32x2048 [0, 2, 1] x transposes_S8x2048x32_S8x32x2048_0_2_1
  let h1 := hopK A0 x0
  let h2 := hopK A0 h1
  let h3 := hopK A1 x0
  let h4 := hopK A1 h3
  let h5 := hopK A2 x0
  let h6 := hopK A2 h5
  let s := linK (catK x0 h1 h2 h3 h4 h5 h6) W (broadcastInDim S64x1 ![0] bcast_S64_S64x1_0 b)
  let o := bnK s (broadcastInDim S64x1 ![0] bcast_S64_S64x1_0 (meanK s)) (broadcastInDim S64x1 ![0] bcast_S64_S64x1_0 (varK s))
    (broadcastInDim S64x1 ![0] bcast_S64_S64x1_0 gamma) (broadcastInDim S64x1 ![0] bcast_S64_S64x1_0 beta)
  transpose S8x2048x64 [0, 2, 1] o transposes_S8x64x2048_S8x2048x64_0_2_1

end Cert.KernelIdeal.Hand

end
-- ==== Proof.KernelIdealValue.Hops.lean ====
import proofs.«142868_j70317204570386_1_alg».proof.Proof.KernelIdealFrame.Hops
import proofs.«142868_j70317204570386_1_alg».proof.Proof.KernelTerm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

private theorem lhs_row (j : S32x1024.Idx) (k : dot_S32x2048_S2048x1024_S32x1024_1_0_0_1_n_n.contr.Idx) :
    (dot_S32x2048_S2048x1024_S32x1024_1_0_0_1_n_n.lhsIdx j k 0).val = (j 0).val := by
  unfold DotDims.lhsIdx
  rw [dif_neg (show ¬(0 : Fin S32x2048.rank) ∈ dot_S32x2048_S2048x1024_S32x1024_1_0_0_1_n_n.lhsBatch by decide),
    dif_pos (show (0 : Fin S32x2048.rank) ∈ dot_S32x2048_S2048x1024_S32x1024_1_0_0_1_n_n.lhsNonContracting by decide)]
  rfl

private theorem lhs_mid (j : S32x1024.Idx) (k : dot_S32x2048_S2048x1024_S32x1024_1_0_0_1_n_n.contr.Idx) :
    (dot_S32x2048_S2048x1024_S32x1024_1_0_0_1_n_n.lhsIdx j k 1).val = (k ⟨0, by decide⟩).val :=
  DotDims.lhsIdx_val_of_single (d := dot_S32x2048_S2048x1024_S32x1024_1_0_0_1_n_n) (cl := 1) rfl j k

private theorem rhs_mid (j : S32x1024.Idx) (k : dot_S32x2048_S2048x1024_S32x1024_1_0_0_1_n_n.contr.Idx) :
    (dot_S32x2048_S2048x1024_S32x1024_1_0_0_1_n_n.rhsIdx j k 0).val = (k ⟨0, by decide⟩).val :=
  DotDims.rhsIdx_val_of_single (d := dot_S32x2048_S2048x1024_S32x1024_1_0_0_1_n_n) (cr := 0) rfl j k

private theorem rhs_col (j : S32x1024.Idx) (k : dot_S32x2048_S2048x1024_S32x1024_1_0_0_1_n_n.contr.Idx) :
    (dot_S32x2048_S2048x1024_S32x1024_1_0_0_1_n_n.rhsIdx j k 1).val = (j 1).val := by
  unfold DotDims.rhsIdx
  rw [dif_neg (show ¬(1 : Fin S2048x1024.rank) ∈ dot_S32x2048_S2048x1024_S32x1024_1_0_0_1_n_n.rhsBatch by decide),
    dif_pos (show (1 : Fin S2048x1024.rank) ∈ dot_S32x2048_S2048x1024_S32x1024_1_0_0_1_n_n.rhsNonContracting by decide)]
  rfl

private theorem cons_unit_ix2 {n0 n1 : Nat} (a : Fin n0) (b : Fin n1) :
    (Fin.cons (⟨0, Nat.one_pos⟩ : Fin 1) (ix2 a b) : (⟨2 + 1, Matrix.vecCons 1 ![n0, n1]⟩ : Shape).Idx) = ix3 (0 : Fin 1) a b :=
  funext fun d => by match d with | ⟨0, _⟩ => rfl | ⟨1, _⟩ => rfl | ⟨2, _⟩ => rfl

-- The block product at (l, w) is the sum over the node axis v of slab (l, v) times tile (v, w).
theorem pay_apply_r0 (x0 : Vec Ideal S1x2048x1024 .f32) (x1 : Vec Ideal S1x32x2048 .f32) (l : Fin 32) (w : Fin 1024) :
    k0_pay1 x0 x1 (ix3 (0 : Fin 1) l w) = ∑ v : Fin 2048, x1 (ix3 (0 : Fin 1) l v) * x0 (ix3 (0 : Fin 1) v w) := by
  unfold k0_pay1
  refine (shapeCast_addUnit_apply ![32, 1024] _ _ (ix3 (0 : Fin 1) l w)).trans ?_
  have hj : (fun a : Fin 2 => ix3 (0 : Fin 1) l w a.succ) = ix2 l w :=
    funext fun a => by match a with | ⟨0, _⟩ => rfl | ⟨1, _⟩ => rfl
  rw [hj]
  refine (Ideal.matmul_constant_zero_apply dot_S32x2048_S2048x1024_S32x1024_1_0_0_1_n_n none _ _ (ix2 l w)).trans ?_
  rw [← Equiv.sum_comp (contrEquiv1 dot_S32x2048_S2048x1024_S32x1024_1_0_0_1_n_n 2048 rfl rfl).symm]
  refine Finset.sum_congr rfl fun v _ => ?_
  have hk := contrEquiv1_symm_val dot_S32x2048_S2048x1024_S32x1024_1_0_0_1_n_n 2048 rfl rfl v
  have el : dot_S32x2048_S2048x1024_S32x1024_1_0_0_1_n_n.lhsIdx (ix2 l w)
      ((contrEquiv1 dot_S32x2048_S2048x1024_S32x1024_1_0_0_1_n_n 2048 rfl rfl).symm v) = ix2 l v :=
    funext fun a => Fin.ext (by
      match a with
      | ⟨0, _⟩ => exact lhs_row _ _
      | ⟨1, _⟩ => exact (lhs_mid _ _).trans hk)
  have er : dot_S32x2048_S2048x1024_S32x1024_1_0_0_1_n_n.rhsIdx (ix2 l w)
      ((contrEquiv1 dot_S32x2048_S2048x1024_S32x1024_1_0_0_1_n_n 2048 rfl rfl).symm v) = ix2 v w :=
    funext fun a => Fin.ext (by
      match a with
      | ⟨0, _⟩ => exact (rhs_mid _ _).trans hk
      | ⟨1, _⟩ => exact rhs_col _ _)
  rw [el, er]
  exact congrArg₂ (· * ·)
    ((shapeCast_dropUnit_apply ![32, 2048] x1 _ (ix2 l v)).trans (congrArg x1 (cons_unit_ix2 l v)))
    ((shapeCast_dropUnit_apply ![2048, 1024] x0 _ (ix2 v w)).trans (congrArg x0 (cons_unit_ix2 v w)))

private theorem hz3 : (![0, 0, 0] : Fin 3 → Nat) = fun _ => 0 := funext fun a => by fin_cases a <;> rfl

-- If the tile and the slab are the blocks of A and h at the output index's sample, row and column, the product there is the hop.
theorem hop_block_r0 (A : FVec Ideal S8x2048x2048 .f32) (h : FVec Ideal S8x32x2048 .f32)
    (x0 : Vec Ideal S1x2048x1024 .f32) (x1 : Vec Ideal S1x32x2048 .f32) (y : S1x32x1024.Idx) (i : S8x32x2048.Idx)
    (h0 : ∀ (v : Fin 2048) (w : Fin 1024), w.val = (y 2).val →
      x0 (ix3 (0 : Fin 1) v w) = A (ix3 (n0 := 8) (n1 := 2048) (n2 := 2048) (i 0) v (i 2)))
    (h1 : ∀ (l : Fin 32) (v : Fin 2048), l.val = (y 1).val →
      x1 (ix3 (0 : Fin 1) l v) = h (ix3 (n0 := 8) (n1 := 32) (n2 := 2048) (i 0) (i 1) v)) :
    k0_pay1 x0 x1 y = hopK A h i := by
  obtain ⟨n, l, w, rfl⟩ : ∃ (n : Fin 1) (l : Fin 32) (w : Fin 1024), y = ix3 n l w := ⟨y 0, y 1, y 2, eq_ix3 y⟩
  obtain rfl : n = 0 := Subsingleton.elim _ _
  rw [pay_apply_r0]
  unfold hopK
  exact Finset.sum_congr rfl fun v _ => by rw [h1 l v rfl, h0 v w rfl]

-- All six calls have these index maps: the inputs' block indices are the output's sample, the tile's also its column tile,
theorem idx_facts : ∀ t : Fin grid0.N,
    win0_0.index t (0 : Fin 3) = win0_2.index t (0 : Fin 3) ∧ win0_0.index t (1 : Fin 3) = 0
    ∧ win0_0.index t (2 : Fin 3) = win0_2.index t (2 : Fin 3) ∧ win0_1.index t (0 : Fin 3) = win0_2.index t (0 : Fin 3)
    ∧ win0_1.index t (1 : Fin 3) = 0 ∧ win0_1.index t (2 : Fin 3) = 0 ∧ win0_2.index t (1 : Fin 3) = 0 := by
  decide +kernel

-- and every (sample, column tile) is the output block index of some point.
theorem idx_onto : ∀ (q0 : Fin 8) (q2 : Fin 2), ∃ t : Fin grid0.N, win0_2.index t = ![q0.val, 0, q2.val] := by
  decide +kernel

-- The blocks of A and h at the three block indices of point `t` multiply to block `t` of the hop.
theorem hop_flushed (A : FVec Ideal S8x2048x2048 .f32) (h : FVec Ideal S8x32x2048 .f32) (t : Fin grid0.N)
    (e0 : S1x2048x1024.Idx → S8x2048x2048.Idx) (e1 : S1x32x2048.Idx → S8x32x2048.Idx) (e2 : S1x32x1024.Idx → S8x32x2048.Idx)
    (h0 : ∀ x a, (e0 x a).val = win0_0.index t a * S1x2048x1024.size a + 1 * (x a).val)
    (h1 : ∀ x a, (e1 x a).val = win0_1.index t a * S1x32x2048.size a + 1 * (x a).val)
    (h2 : ∀ x a, (e2 x a).val = win0_2.index t a * S1x32x1024.size a + 1 * (x a).val)
    (x0 : Vec Ideal S1x2048x1024 .f32) (x1 : Vec Ideal S1x32x2048 .f32) (hx0 : ∀ x, x0 x = A (e0 x)) (hx1 : ∀ x, x1 x = h (e1 x))
    {y2 : Vec Ideal S1x32x1024 .f32} (g2 : y2 = out0_2 x0 x1) : y2 = fun j => hopK A h (e2 j) := by
  subst g2
  unfold out0_2
  rw [View.canon_unit_zero hz3]
  simp only [View.ld_unit_zero (S := S1x2048x1024) hz3, View.ld_unit_zero (S := S1x32x2048) hz3]
  obtain ⟨i0, i1, i2, i3, i4, i5, i6⟩ := idx_facts t
  funext j
  have j0 : (j 0).val < 1 := (j 0).isLt
  have q0 : (e2 j 0).val = win0_2.index t 0 * 1 + 1 * (j 0).val := h2 j 0
  have q1 : (e2 j 1).val = win0_2.index t 1 * 32 + 1 * (j 1).val := h2 j 1
  have q2 : (e2 j 2).val = win0_2.index t 2 * 1024 + 1 * (j 2).val := h2 j 2
  refine hop_block_r0 A h x0 x1 j (e2 j) (fun v w hw => (hx0 _).trans (congrArg A (funext fun a => Fin.ext ?_)))
    (fun l v hl => (hx1 _).trans (congrArg h (funext fun a => Fin.ext ?_)))
  · match a with
    | ⟨0, _⟩ => have p : (e0 (ix3 (0 : Fin 1) v w) 0).val = win0_0.index t 0 * 1 + 1 * 0 := h0 _ 0
                show (e0 _ 0).val = (e2 j 0).val; omega
    | ⟨1, _⟩ => have p : (e0 (ix3 (0 : Fin 1) v w) 1).val = win0_0.index t 1 * 2048 + 1 * v.val := h0 _ 1
                show (e0 _ 1).val = v.val; omega
    | ⟨2, _⟩ => have p : (e0 (ix3 (0 : Fin 1) v w) 2).val = win0_0.index t 2 * 1024 + 1 * w.val := h0 _ 2
                show (e0 _ 2).val = (e2 j 2).val; omega
  · match a with
    | ⟨0, _⟩ => have p : (e1 (ix3 (0 : Fin 1) l v) 0).val = win0_1.index t 0 * 1 + 1 * 0 := h1 _ 0
                show (e1 _ 0).val = (e2 j 0).val; omega
    | ⟨1, _⟩ => have p : (e1 (ix3 (0 : Fin 1) l v) 1).val = win0_1.index t 1 * 32 + 1 * l.val := h1 _ 1
                show (e1 _ 1).val = (e2 j 1).val; omega
    | ⟨2, _⟩ => have p : (e1 (ix3 (0 : Fin 1) l v) 2).val = win0_1.index t 2 * 2048 + 1 * v.val := h1 _ 2
                show (e1 _ 2).val = v.val; omega

-- Entry (n, l, w) is offset (0, l, w % 1024) of the block with indices (n, 0, w / 1024).
theorem hop_cover (e2 : Fin grid0.N → S1x32x1024.Idx → S8x32x2048.Idx)
    (h2 : ∀ t x a, (e2 t x a).val = win0_2.index t a * S1x32x1024.size a + 1 * (x a).val) (i : S8x32x2048.Idx) :
    ∃ t y, e2 t y = i := by
  have hi2 : (i 2).val < 2048 := (i 2).isLt
  obtain ⟨t, ht⟩ := idx_onto (i 0) ⟨(i 2).val / 1024, by omega⟩
  refine ⟨t, ix3 (0 : Fin 1) (i 1) ⟨(i 2).val % 1024, Nat.mod_lt _ (by decide)⟩, funext fun a => Fin.ext ?_⟩
  rw [h2, ht]
  match a with
  | ⟨0, _⟩ => show (i 0).val * 1 + 1 * 0 = (i 0).val; omega
  | ⟨1, _⟩ => show 0 * 32 + 1 * (i 1).val = (i 1).val; omega
  | ⟨2, _⟩ => show (i 2).val / 1024 * 1024 + 1 * ((i 2).val % 1024) = (i 2).val; omega

theorem arr_hop0 (V : (c : Dev nD) → (b : Ref sig .tc) → Buf (Elt Ideal) ((c : Thread nD τ).loc b)) (c : Dev nD) :
    (dat0 (F := Ideal) V c).arrAt 2 cfg0.N = hopK (V c (Pipeline.arrRef spec0 0)) (V c (Pipeline.arrRef spec0 1)) :=
  (dat0 (F := Ideal) V c).arrAt_eq_of_cover 2 _
    (fun t _ => hop_flushed (V c (Pipeline.arrRef spec0 0)) (V c (Pipeline.arrRef spec0 1)) t
      ((cfg0.win 0).blk t).view.emb ((cfg0.win 1).blk t).view.emb ((cfg0.win 2).blk t).view.emb (fun _ _ => rfl) (fun _ _ => rfl) (fun _ _ => rfl)
      (iblk0 V c 0 t) (iblk0 V c 1 t) (fun _ => rfl) (fun _ => rfl) (after0_2 V c t))
    fun i => (hop_cover (fun t => ((cfg0.win 2).blk t).view.emb) (fun _ _ _ => rfl) i).elim fun t ⟨y, e⟩ =>
      ⟨t, flush0_2 t, e ▸ ((cfg0.win 2).blk t).view.emb_mem_set y⟩

theorem arr_hop1 (V : (c : Dev nD) → (b : Ref sig .tc) → Buf (Elt Ideal) ((c : Thread nD τ).loc b)) (c : Dev nD) :
    (dat1 (F := Ideal) V c).arrAt 2 cfg1.N = hopK (V c (Pipeline.arrRef spec1 0)) (V c (Pipeline.arrRef spec1 1)) :=
  (dat1 (F := Ideal) V c).arrAt_eq_of_cover 2 _
    (fun t _ => hop_flushed (V c (Pipeline.arrRef spec1 0)) (V c (Pipeline.arrRef spec1 1)) t
      ((cfg1.win 0).blk t).view.emb ((cfg1.win 1).blk t).view.emb ((cfg1.win 2).blk t).view.emb (fun _ _ => rfl) (fun _ _ => rfl) (fun _ _ => rfl)
      (iblk1 V c 0 t) (iblk1 V c 1 t) (fun _ => rfl) (fun _ => rfl) (after1_2 V c t))
    fun i => (hop_cover (fun t => ((cfg1.win 2).blk t).view.emb) (fun _ _ _ => rfl) i).elim fun t ⟨y, e⟩ =>
      ⟨t, flush1_2 t, e ▸ ((cfg1.win 2).blk t).view.emb_mem_set y⟩

theorem arr_hop2 (V : (c : Dev nD) → (b : Ref sig .tc) → Buf (Elt Ideal) ((c : Thread nD τ).loc b)) (c : Dev nD) :
    (dat2 (F := Ideal) V c).arrAt 2 cfg2.N = hopK (V c (Pipeline.arrRef spec2 0)) (V c (Pipeline.arrRef spec2 1)) :=
  (dat2 (F := Ideal) V c).arrAt_eq_of_cover 2 _
    (fun t _ => hop_flushed (V c (Pipeline.arrRef spec2 0)) (V c (Pipeline.arrRef spec2 1)) t
      ((cfg2.win 0).blk t).view.emb ((cfg2.win 1).blk t).view.emb ((cfg2.win 2).blk t).view.emb (fun _ _ => rfl) (fun _ _ => rfl) (fun _ _ => rfl)
      (iblk2 V c 0 t) (iblk2 V c 1 t) (fun _ => rfl) (fun _ => rfl) (after2_2 V c t))
    fun i => (hop_cover (fun t => ((cfg2.win 2).blk t).view.emb) (fun _ _ _ => rfl) i).elim fun t ⟨y, e⟩ =>
      ⟨t, flush2_2 t, e ▸ ((cfg2.win 2).blk t).view.emb_mem_set y⟩

theorem arr_hop3 (V : (c : Dev nD) → (b : Ref sig .tc) → Buf (Elt Ideal) ((c : Thread nD τ).loc b)) (c : Dev nD) :
    (dat3 (F := Ideal) V c).arrAt 2 cfg3.N = hopK (V c (Pipeline.arrRef spec3 0)) (V c (Pipeline.arrRef spec3 1)) :=
  (dat3 (F := Ideal) V c).arrAt_eq_of_cover 2 _
    (fun t _ => hop_flushed (V c (Pipeline.arrRef spec3 0)) (V c (Pipeline.arrRef spec3 1)) t
      ((cfg3.win 0).blk t).view.emb ((cfg3.win 1).blk t).view.emb ((cfg3.win 2).blk t).view.emb (fun _ _ => rfl) (fun _ _ => rfl) (fun _ _ => rfl)
      (iblk3 V c 0 t) (iblk3 V c 1 t) (fun _ => rfl) (fun _ => rfl) (after3_2 V c t))
    fun i => (hop_cover (fun t => ((cfg3.win 2).blk t).view.emb) (fun _ _ _ => rfl) i).elim fun t ⟨y, e⟩ =>
      ⟨t, flush3_2 t, e ▸ ((cfg3.win 2).blk t).view.emb_mem_set y⟩

theorem arr_hop4 (V : (c : Dev nD) → (b : Ref sig .tc) → Buf (Elt Ideal) ((c : Thread nD τ).loc b)) (c : Dev nD) :
    (dat4 (F := Ideal) V c).arrAt 2 cfg4.N = hopK (V c (Pipeline.arrRef spec4 0)) (V c (Pipeline.arrRef spec4 1)) :=
  (dat4 (F := Ideal) V c).arrAt_eq_of_cover 2 _
    (fun t _ => hop_flushed (V c (Pipeline.arrRef spec4 0)) (V c (Pipeline.arrRef spec4 1)) t
      ((cfg4.win 0).blk t).view.emb ((cfg4.win 1).blk t).view.emb ((cfg4.win 2).blk t).view.emb (fun _ _ => rfl) (fun _ _ => rfl) (fun _ _ => rfl)
      (iblk4 V c 0 t) (iblk4 V c 1 t) (fun _ => rfl) (fun _ => rfl) (after4_2 V c t))
    fun i => (hop_cover (fun t => ((cfg4.win 2).blk t).view.emb) (fun _ _ _ => rfl) i).elim fun t ⟨y, e⟩ =>
      ⟨t, flush4_2 t, e ▸ ((cfg4.win 2).blk t).view.emb_mem_set y⟩

theorem arr_hop5 (V : (c : Dev nD) → (b : Ref sig .tc) → Buf (Elt Ideal) ((c : Thread nD τ).loc b)) (c : Dev nD) :
    (dat5 (F := Ideal) V c).arrAt 2 cfg5.N = hopK (V c (Pipeline.arrRef spec5 0)) (V c (Pipeline.arrRef spec5 1)) :=
  (dat5 (F := Ideal) V c).arrAt_eq_of_cover 2 _
    (fun t _ => hop_flushed (V c (Pipeline.arrRef spec5 0)) (V c (Pipeline.arrRef spec5 1)) t
      ((cfg5.win 0).blk t).view.emb ((cfg5.win 1).blk t).view.emb ((cfg5.win 2).blk t).view.emb (fun _ _ => rfl) (fun _ _ => rfl) (fun _ _ => rfl)
      (iblk5 V c 0 t) (iblk5 V c 1 t) (fun _ => rfl) (fun _ => rfl) (after5_2 V c t))
    fun i => (hop_cover (fun t => ((cfg5.win 2).blk t).view.emb) (fun _ _ _ => rfl) i).elim fun t ⟨y, e⟩ =>
      ⟨t, flush5_2 t, e ▸ ((cfg5.win 2).blk t).view.emb_mem_set y⟩

end Cert.KernelIdeal.Hand

end
-- ==== Proof.KernelIdealValue.Lin.lean ====
import proofs.«142868_j70317204570386_1_alg».proof.Proof.KernelIdealFrame.Region6
import proofs.«142868_j70317204570386_1_alg».proof.Proof.KernelTerm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

private theorem lhs_axis0 (j : S64x2048.Idx) (k : dot_S64x224_S224x2048_S64x2048_1_0_0_1_n_n.contr.Idx) :
    (dot_S64x224_S224x2048_S64x2048_1_0_0_1_n_n.lhsIdx j k 0).val = (j 0).val := by
  simp [DotDims.lhsIdx, dot_S64x224_S224x2048_S64x2048_1_0_0_1_n_n]; rfl

private theorem lhs_axis1 (j : S64x2048.Idx) (k : dot_S64x224_S224x2048_S64x2048_1_0_0_1_n_n.contr.Idx) :
    (dot_S64x224_S224x2048_S64x2048_1_0_0_1_n_n.lhsIdx j k 1).val = (k ⟨0, by decide⟩).val :=
  dot_S64x224_S224x2048_S64x2048_1_0_0_1_n_n.lhsIdx_val_of_single rfl j k

private theorem rhs_axis0 (j : S64x2048.Idx) (k : dot_S64x224_S224x2048_S64x2048_1_0_0_1_n_n.contr.Idx) :
    (dot_S64x224_S224x2048_S64x2048_1_0_0_1_n_n.rhsIdx j k 0).val = (k ⟨0, by decide⟩).val :=
  dot_S64x224_S224x2048_S64x2048_1_0_0_1_n_n.rhsIdx_val_of_single rfl j k

private theorem rhs_axis1 (j : S64x2048.Idx) (k : dot_S64x224_S224x2048_S64x2048_1_0_0_1_n_n.contr.Idx) :
    (dot_S64x224_S224x2048_S64x2048_1_0_0_1_n_n.rhsIdx j k 1).val = (j 1).val := by
  simp [DotDims.rhsIdx, dot_S64x224_S224x2048_S64x2048_1_0_0_1_n_n]; rfl

theorem matmul_lin (W : FVec Ideal S64x224 .bf16) (g : FVec Ideal S224x2048 .bf16) (o : Fin 64) (v : Fin 2048) :
    matmul dot_S64x224_S224x2048_S64x2048_1_0_0_1_n_n none W g (constant (F := Ideal) S64x2048 .f32 0x00000000#32) (ix2 o v)
      = ∑ k : Fin 224, W (ix2 o k) * g (ix2 k v) := by
  refine (Ideal.matmul_constant_zero_apply dot_S64x224_S224x2048_S64x2048_1_0_0_1_n_n none W g (ix2 o v)).trans ?_
  rw [← Equiv.sum_comp (contrEquiv1 dot_S64x224_S224x2048_S64x2048_1_0_0_1_n_n 224 rfl rfl).symm]
  refine Finset.sum_congr rfl fun k _ => ?_
  have hk := contrEquiv1_symm_val dot_S64x224_S224x2048_S64x2048_1_0_0_1_n_n 224 rfl rfl k
  have el : dot_S64x224_S224x2048_S64x2048_1_0_0_1_n_n.lhsIdx (ix2 o v) ((contrEquiv1 _ 224 rfl rfl).symm k) = ix2 o k := by
    funext a; apply Fin.ext
    match a with
    | ⟨0, _⟩ => exact lhs_axis0 _ _
    | ⟨1, _⟩ => exact (lhs_axis1 _ _).trans hk
  have er : dot_S64x224_S224x2048_S64x2048_1_0_0_1_n_n.rhsIdx (ix2 o v) ((contrEquiv1 _ 224 rfl rfl).symm k) = ix2 k v := by
    funext a; apply Fin.ext
    match a with
    | ⟨0, _⟩ => exact (rhs_axis0 _ _).trans hk
    | ⟨1, _⟩ => exact rhs_axis1 _ _
  rw [el, er]

theorem broadcastTo_col_lin {α : Type} (u : S64x1.Idx → α) (h : S64x1.Broadcasts S64x2048) (o : Fin 64) (v : Fin 2048) :
    broadcastTo S64x2048 u h (ix2 o v) = u (ix2 o (0 : Fin 1)) := by
  refine broadcastTo_apply u h (ix2 o v) (ix2 o (0 : Fin 1)) fun ax => ?_
  match ax with
  | ⟨0, _⟩ => rfl
  | ⟨1, _⟩ => rfl

theorem pay_lin (x0 : Vec Ideal S1x224x2048 .f32) (x1 : Vec Ideal S64x224 .f32) (x2 : Vec Ideal S64x1 .f32)
    (u : Fin 1) (o : Fin 64) (v : Fin 2048) :
    k6_pay1 x0 x1 x2 (ix3 u o v) = (∑ k : Fin 224, x1 (ix2 o k) * x0 (ix3 (0 : Fin 1) k v)) + x2 (ix2 o (0 : Fin 1)) := by
  unfold k6_pay1
  rw [shapeCast_ab_1ab_apply, addf_apply, broadcastTo_col_lin, shapeCast_self, matmul_lin]
  refine congrArg (· + x2 (ix2 o (0 : Fin 1))) (Finset.sum_congr rfl fun k _ => ?_)
  rw [truncf_apply, truncf_apply, shapeCast_1ab_ab_apply]

theorem hz3_lin : (![0, 0, 0] : Fin 3 → Nat) = fun _ => 0 := funext fun a => by fin_cases a <;> rfl
theorem hz2_lin : (![0, 0] : Fin 2 → Nat) = fun _ => 0 := funext fun a => by fin_cases a <;> rfl

theorem idx_facts_lin : ∀ t : Fin cfg6.N,
    win6_0.index t (0 : Fin 3) = win6_3.index t (0 : Fin 3) ∧ win6_0.index t (1 : Fin 3) = 0 ∧ win6_0.index t (2 : Fin 3) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 3) ≤ 7 ∧ win6_3.index t (1 : Fin 3) = 0 ∧ win6_3.index t (2 : Fin 3) = 0 :=
  (by decide +kernel : ∀ t : Fin grid6.N, _)

theorem idx_onto_lin : ∀ q : Fin 8, ∃ t : Fin cfg6.N, win6_3.index t = ![q.val, 0, 0] :=
  (by decide +kernel : ∀ q : Fin 8, ∃ t : Fin grid6.N, win6_3.index t = ![q.val, 0, 0])

theorem linK_apply_lin (f : FVec Ideal S8x224x2048 .f32) (W : FVec Ideal S64x224 .f32) (b2 : FVec Ideal S64x1 .f32)
    (n : Fin 8) (o : Fin 64) (v : Fin 2048) :
    linK f W b2 (ix3 n o v) = (∑ k : Fin 224, W (ix2 o k) * f (ix3 n k v)) + b2 (ix2 o (0 : Fin 1)) := rfl

section Blocks
variable (V : (c : Dev nD) → (b : Ref sig .tc) → Buf (Elt Ideal) ((c : Thread nD τ).loc b))

theorem iblk0_lin (c : Dev nD) (t : Fin cfg6.N) (k : Fin 224) (v : Fin 2048) (n : Fin 8) (hn : n.val = win6_3.index t (0 : Fin 3)) :
    (iblk6 V c 0 t : Vec Ideal S1x224x2048 .f32) (ix3 (0 : Fin 1) k v)
      = (V c (Pipeline.arrRef spec6 0) : S8x224x2048.Idx → Elt Ideal .f32) (ix3 n k v) := by
  obtain ⟨e0, e1, e2, -⟩ := idx_facts_lin t
  unfold iblk6
  rw [View.read_apply]
  refine congrArg (V c (Pipeline.arrRef spec6 0) : S8x224x2048.Idx → Elt Ideal .f32) (funext fun a => Fin.ext ?_)
  match a with
  | ⟨0, _⟩ => show win6_0.index t (0 : Fin 3) * 1 + 1 * (0 : Fin 1).val = n.val; rw [e0, hn]; simp
  | ⟨1, _⟩ => show win6_0.index t (1 : Fin 3) * 224 + 1 * k.val = k.val; rw [e1]; omega
  | ⟨2, _⟩ => show win6_0.index t (2 : Fin 3) * 2048 + 1 * v.val = v.val; rw [e2]; omega

theorem iblk1_lin (c : Dev nD) (t : Fin cfg6.N) (o : Fin 64) (k : Fin 224) :
    (iblk6 V c 1 t : Vec Ideal S64x224 .f32) (ix2 o k)
      = (V c (Pipeline.arrRef spec6 1) : S64x224.Idx → Elt Ideal .f32) (ix2 o k) := by
  obtain ⟨-, -, -, e3, e4, -⟩ := idx_facts_lin t
  unfold iblk6
  rw [View.read_apply]
  refine congrArg (V c (Pipeline.arrRef spec6 1) : S64x224.Idx → Elt Ideal .f32) (funext fun a => Fin.ext ?_)
  match a with
  | ⟨0, _⟩ => show win6_1.index t (0 : Fin 2) * 64 + 1 * o.val = o.val; rw [e3]; omega
  | ⟨1, _⟩ => show win6_1.index t (1 : Fin 2) * 224 + 1 * k.val = k.val; rw [e4]; omega

theorem iblk2_lin (c : Dev nD) (t : Fin cfg6.N) (o : Fin 64) :
    (iblk6 V c 2 t : Vec Ideal S64x1 .f32) (ix2 o (0 : Fin 1))
      = (V c (Pipeline.arrRef spec6 2) : S64x1.Idx → Elt Ideal .f32) (ix2 o (0 : Fin 1)) := by
  obtain ⟨-, -, -, -, -, e5, e6, -⟩ := idx_facts_lin t
  unfold iblk6
  rw [View.read_apply]
  refine congrArg (V c (Pipeline.arrRef spec6 2) : S64x1.Idx → Elt Ideal .f32) (funext fun a => Fin.ext ?_)
  match a with
  | ⟨0, _⟩ => show win6_2.index t (0 : Fin 2) * 64 + 1 * o.val = o.val; rw [e5]; omega
  | ⟨1, _⟩ => show win6_2.index t (1 : Fin 2) * 1 + 1 * (0 : Fin 1).val = (0 : Fin 1).val; rw [e6]; omega

theorem flushed_lin (c : Dev nD) (t : Fin cfg6.N) :
    (dat6 (F := Ideal) V c).flushed 3 t = ((cfg6.win 3).blk t).view.read (Elt Ideal)
      (linK (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz3_lin]
  simp only [View.ld_unit_zero (S := S1x224x2048) hz3_lin, View.ld_unit_zero (S := S64x224) hz2_lin, View.ld_unit_zero (S := S64x1) hz2_lin]
  obtain ⟨-, -, -, -, -, -, -, e7, e8, e9⟩ := idx_facts_lin t
  funext j
  obtain ⟨u, o, v, rfl⟩ : ∃ (u : Fin 1) (o : Fin 64) (v : Fin 2048), j = ix3 u o v := ⟨j 0, j 1, j 2, eq_ix3 j⟩
  show k6_pay1 (iblk6 V c 0 t) (iblk6 V c 1 t) (iblk6 V c 2 t) (ix3 u o v)
    = linK (V c (Pipeline.arrRef spec6 0)) (V c (Pipeline.arrRef spec6 1)) (V c (Pipeline.arrRef spec6 2)) (((cfg6.win 3).blk t).view.emb (ix3 u o v))
  have hemb : ((cfg6.win 3).blk t).view.emb (ix3 u o v) = ix3 (⟨win6_3.index t (0 : Fin 3), by omega⟩ : Fin 8) o v := by
    funext a; apply Fin.ext
    match a with
    | ⟨0, _⟩ => show win6_3.index t (0 : Fin 3) * 1 + 1 * u.val = win6_3.index t (0 : Fin 3); omega
    | ⟨1, _⟩ => show win6_3.index t (1 : Fin 3) * 64 + 1 * o.val = o.val; rw [e8]; omega
    | ⟨2, _⟩ => show win6_3.index t (2 : Fin 3) * 2048 + 1 * v.val = v.val; rw [e9]; omega
  rw [hemb, linK_apply_lin]
  refine (pay_lin _ _ _ u o v).trans ?_
  rw [iblk2_lin]
  refine congrArg (· + (V c (Pipeline.arrRef spec6 2) : S64x1.Idx → Elt Ideal .f32) (ix2 o (0 : Fin 1))) (Finset.sum_congr rfl fun k _ => ?_)
  rw [iblk1_lin, iblk0_lin V c t k v ⟨win6_3.index t (0 : Fin 3), by omega⟩ rfl]

theorem mem_blk_lin (t : Fin cfg6.N) (i : S8x64x2048.Idx) :
    i ∈ ((cfg6.win 3).blk t).view.set ↔ ∀ a : Fin 3, win6_3.index t a * S1x64x2048.size a ≤ (i a).val ∧ (i a).val < win6_3.index t a * S1x64x2048.size a + S1x64x2048.size a := by
  show i ∈ ((View.whole main_v9).slice (win6_3.rect t)).set ↔ _
  rw [View.set_slice_whole, Rect.mem_set_unit]
  exact Iff.rfl

-- the eight row blocks ![q, 0, 0] cover the array
theorem cover_rows {N : ℕ} (idx : Fin N → Fin 3 → ℕ) (honto : ∀ q : Fin 8, ∃ t, idx t = ![q.val, 0, 0]) (i : S8x64x2048.Idx) :
    ∃ t, ∀ a : Fin 3, idx t a * S1x64x2048.size a ≤ (i a).val ∧ (i a).val < idx t a * S1x64x2048.size a + S1x64x2048.size a := by
  have hi1 : (i 1).val < 64 := (i 1).isLt
  have hi2 : (i 2).val < 2048 := (i 2).isLt
  obtain ⟨t, ht⟩ := honto ⟨(i 0).val, (i 0).isLt⟩
  have q0 : idx t 0 = (i 0).val := congrFun ht 0
  have q1 : idx t 1 = 0 := congrFun ht 1
  have q2 : idx t 2 = 0 := congrFun ht 2
  refine ⟨t, fun a => ?_⟩
  match a with
  | ⟨0, _⟩ => show idx t 0 * 1 ≤ (i 0).val ∧ (i 0).val < idx t 0 * 1 + 1; omega
  | ⟨1, _⟩ => show idx t 1 * 64 ≤ (i 1).val ∧ (i 1).val < idx t 1 * 64 + 64; omega
  | ⟨2, _⟩ => show idx t 2 * 2048 ≤ (i 2).val ∧ (i 2).val < idx t 2 * 2048 + 2048; omega

theorem cover_lin (i : S8x64x2048.Idx) : ∃ t : Fin cfg6.N, (cfg6.win 3).flush t = true ∧ i ∈ ((cfg6.win 3).blk t).view.set :=
  let ⟨t, h⟩ := cover_rows _ idx_onto_lin i
  ⟨t, flush6_3 t, (mem_blk_lin t i).mpr h⟩

end Blocks

theorem arr_lin (V : (c : Dev nD) → (b : Ref sig .tc) → Buf (Elt Ideal) ((c : Thread nD τ).loc b)) (c : Dev nD) :
    (dat6 (F := Ideal) V c).arrAt 3 cfg6.N = linK (V c (Pipeline.arrRef spec6 0)) (V c (Pipeline.arrRef spec6 1)) (V c (Pipeline.arrRef spec6 2)) :=
  (dat6 (F := Ideal) V c).arrAt_eq_of_cover 3 _ (fun t _ => flushed_lin V c t) cover_lin

end Cert.KernelIdeal.Hand

end
-- ==== Proof.KernelIdealValue.Bn.lean ====
import proofs.«142868_j70317204570386_1_alg».proof.Proof.KernelIdealFrame.Region7
import proofs.«142868_j70317204570386_1_alg».proof.Proof.KernelIdealValue.Lin
import proofs.«142868_j70317204570386_1_alg».proof.Proof.KernelTerm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

private theorem tail_ix3 (a : Fin 1) (o : Fin 64) (v : Fin 2048) :
    (fun b : Fin 2 => (ix3 a o v : S1x64x2048.Idx) b.succ) = (ix2 o v : S64x2048.Idx) :=
  funext fun b => by
    match b with
    | ⟨0, _⟩ => rfl
    | ⟨1, _⟩ => rfl

private theorem cons_ix2 (a : Fin 1) (o : Fin 64) (v : Fin 2048) :
    (Fin.cons ⟨0, Nat.one_pos⟩ (ix2 o v : S64x2048.Idx) : S1x64x2048.Idx) = ix3 a o v :=
  funext fun b => by
    match b with
    | ⟨0, _⟩ => exact Fin.ext (by have := a.isLt; show 0 = a.val; omega)
    | ⟨1, _⟩ => rfl
    | ⟨2, _⟩ => rfl

theorem pay_bn (x0 : Vec Ideal S1x64x2048 .f32) (xv xm xg xb : Vec Ideal S64x1 .f32) (a : Fin 1) (o : Fin 64) (v : Fin 2048) :
    k7_pay1 x0 xv xm xg xb (ix3 a o v)
      = ((x0 (ix3 a o v) - xm (ix2 o 0)) * rsqrt (addf xv (broadcast S64x1 (Scalar.ofBits .f32 0x3727C5AC#32))) (ix2 o 0)) * xg (ix2 o 0) + xb (ix2 o 0) := by
  unfold k7_pay1
  refine (shapeCast_addUnit_apply ![64, 2048] _ shapeCasts_S64x2048_S1x64x2048 (ix3 a o v)).trans ?_
  rw [tail_ix3]
  simp only [shapeCast_self]
  show (shapeCast S64x2048 x0 shapeCasts_S1x64x2048_S64x2048 (ix2 o v) - broadcastTo S64x2048 xm broadcasts_S64x1_S64x2048 (ix2 o v))
        * broadcastTo S64x2048 (rsqrt (F := Ideal) (addf (F := Ideal) xv (broadcast S64x1 (Scalar.ofBits .f32 0x3727C5AC#32)))) broadcasts_S64x1_S64x2048 (ix2 o v)
        * broadcastTo S64x2048 xg broadcasts_S64x1_S64x2048 (ix2 o v) + broadcastTo S64x2048 xb broadcasts_S64x1_S64x2048 (ix2 o v) = _
  rw [broadcastTo_col_lin, broadcastTo_col_lin, broadcastTo_col_lin, broadcastTo_col_lin]
  rw [shapeCast_dropUnit_apply ![64, 2048] x0 shapeCasts_S1x64x2048_S64x2048 (ix2 o v), cons_ix2 a o v]

theorem point_bn (s : FVec Ideal S8x64x2048 .f32) (mn vr g b : FVec Ideal S64x1 .f32)
    (x0 : Vec Ideal S1x64x2048 .f32) (x1 x2 x3 x4 : Vec Ideal S64x1 .f32) (a : Fin 1) (o : Fin 64) (w : Fin 2048) (n : Fin 8)
    (h0 : x0 (ix3 a o w) = s (ix3 n o w)) (h1 : x1 (ix2 o 0) = mn (ix2 o 0)) (h2 : x2 (ix2 o 0) = vr (ix2 o 0))
    (h3 : x3 (ix2 o 0) = g (ix2 o 0)) (h4 : x4 (ix2 o 0) = b (ix2 o 0)) :
    k7_pay1 x0 x2 x1 x3 x4 (ix3 a o w) = bnK s mn vr g b (ix3 n o w) := by
  rw [pay_bn]
  show (x0 (ix3 a o w) - x1 (ix2 o 0)) * (FloatOps.rsqrt (F := Ideal) (FloatOps.addf (F := Ideal) (x2 (ix2 o 0)) _) : Ideal .f32) * x3 (ix2 o 0) + x4 (ix2 o 0)
     = (s (ix3 n o w) - mn (ix2 o 0)) * (FloatOps.rsqrt (F := Ideal) (FloatOps.addf (F := Ideal) (vr (ix2 o 0)) _) : Ideal .f32) * g (ix2 o 0) + b (ix2 o 0)
  rw [h0, h1, h2, h3, h4]

theorem idx_facts_bn : ∀ t : Fin cfg7.N, win7_0.index t (0 : Fin 3) = win7_5.index t (0 : Fin 3)
    ∧ win7_0.index t (1 : Fin 3) = 0 ∧ win7_0.index t (2 : Fin 3) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 3) < 8 ∧ win7_5.index t (1 : Fin 3) = 0 ∧ win7_5.index t (2 : Fin 3) = 0 :=
  (by decide +kernel : ∀ t : Fin grid7.N, _)

theorem idx_onto_bn : ∀ q : Fin 8, ∃ t : Fin cfg7.N, win7_5.index t = ![q.val, 0, 0] :=
  (by decide +kernel : ∀ q : Fin 8, ∃ t : Fin grid7.N, win7_5.index t = ![q.val, 0, 0])

section Blocks
variable (V : (c : Dev nD) → (b : Ref sig .tc) → Buf (Elt Ideal) ((c : Thread nD τ).loc b)) (c : Dev nD) (t : Fin cfg7.N)

theorem emb_out_bn (a : Fin 1) (o : Fin 64) (w : Fin 2048) (hn : win7_5.index t (0 : Fin 3) < 8) :
    ((cfg7.win 5).blk t).view.emb (ix3 a o w : S1x64x2048.Idx) = (ix3 ⟨win7_5.index t (0 : Fin 3), hn⟩ o w : S8x64x2048.Idx) := by
  obtain ⟨e00, e01, e02, e10, e11, e20, e21, e30, e31, e40, e41, -, e51, e52⟩ := idx_facts_bn t
  have ha : a.val = 0 := by have := a.isLt; omega
  funext d; apply Fin.ext
  match d with
  | ⟨0, _⟩ => show win7_5.index t (0 : Fin 3) * 1 + 1 * a.val = win7_5.index t (0 : Fin 3); omega
  | ⟨1, _⟩ => show win7_5.index t (1 : Fin 3) * 64 + 1 * o.val = o.val; omega
  | ⟨2, _⟩ => show win7_5.index t (2 : Fin 3) * 2048 + 1 * w.val = w.val; omega

theorem read_slab_bn (a : Fin 1) (o : Fin 64) (w : Fin 2048) (hn : win7_5.index t (0 : Fin 3) < 8) :
    iblk7 V c 0 t (ix3 a o w : S1x64x2048.Idx) = V c (Pipeline.arrRef spec7 0) (ix3 ⟨win7_5.index t (0 : Fin 3), hn⟩ o w : S8x64x2048.Idx) := by
  obtain ⟨e00, e01, e02, e10, e11, e20, e21, e30, e31, e40, e41, -, e51, e52⟩ := idx_facts_bn t
  have ha : a.val = 0 := by have := a.isLt; omega
  show V c (Pipeline.arrRef spec7 0) (((cfg7.win 0).blk t).view.emb (ix3 a o w : S1x64x2048.Idx)) = _
  refine congrArg _ (funext fun d => Fin.ext ?_)
  match d with
  | ⟨0, _⟩ => show win7_0.index t (0 : Fin 3) * 1 + 1 * a.val = win7_5.index t (0 : Fin 3); omega
  | ⟨1, _⟩ => show win7_0.index t (1 : Fin 3) * 64 + 1 * o.val = o.val; omega
  | ⟨2, _⟩ => show win7_0.index t (2 : Fin 3) * 2048 + 1 * w.val = w.val; omega

theorem read_mean_bn (o : Fin 64) : iblk7 V c 1 t (ix2 o 0 : S64x1.Idx) = V c (Pipeline.arrRef spec7 1) (ix2 o 0 : S64x1.Idx) := by
  obtain ⟨e00, e01, e02, e10, e11, e20, e21, e30, e31, e40, e41, -, e51, e52⟩ := idx_facts_bn t
  show V c (Pipeline.arrRef spec7 1) (((cfg7.win 1).blk t).view.emb (ix2 o 0 : S64x1.Idx)) = _
  refine congrArg _ (funext fun d => Fin.ext ?_)
  match d with
  | ⟨0, _⟩ => show win7_1.index t (0 : Fin 2) * 64 + 1 * o.val = o.val; omega
  | ⟨1, _⟩ => show win7_1.index t (1 : Fin 2) * 1 + 1 * 0 = 0; omega

theorem read_var_bn (o : Fin 64) : iblk7 V c 2 t (ix2 o 0 : S64x1.Idx) = V c (Pipeline.arrRef spec7 2) (ix2 o 0 : S64x1.Idx) := by
  obtain ⟨e00, e01, e02, e10, e11, e20, e21, e30, e31, e40, e41, -, e51, e52⟩ := idx_facts_bn t
  show V c (Pipeline.arrRef spec7 2) (((cfg7.win 2).blk t).view.emb (ix2 o 0 : S64x1.Idx)) = _
  refine congrArg _ (funext fun d => Fin.ext ?_)
  match d with
  | ⟨0, _⟩ => show win7_2.index t (0 : Fin 2) * 64 + 1 * o.val = o.val; omega
  | ⟨1, _⟩ => show win7_2.index t (1 : Fin 2) * 1 + 1 * 0 = 0; omega

theorem read_scale_bn (o : Fin 64) : iblk7 V c 3 t (ix2 o 0 : S64x1.Idx) = V c (Pipeline.arrRef spec7 3) (ix2 o 0 : S64x1.Idx) := by
  obtain ⟨e00, e01, e02, e10, e11, e20, e21, e30, e31, e40, e41, -, e51, e52⟩ := idx_facts_bn t
  show V c (Pipeline.arrRef spec7 3) (((cfg7.win 3).blk t).view.emb (ix2 o 0 : S64x1.Idx)) = _
  refine congrArg _ (funext fun d => Fin.ext ?_)
  match d with
  | ⟨0, _⟩ => show win7_3.index t (0 : Fin 2) * 64 + 1 * o.val = o.val; omega
  | ⟨1, _⟩ => show win7_3.index t (1 : Fin 2) * 1 + 1 * 0 = 0; omega

theorem read_shift_bn (o : Fin 64) : iblk7 V c 4 t (ix2 o 0 : S64x1.Idx) = V c (Pipeline.arrRef spec7 4) (ix2 o 0 : S64x1.Idx) := by
  obtain ⟨e00, e01, e02, e10, e11, e20, e21, e30, e31, e40, e41, -, e51, e52⟩ := idx_facts_bn t
  show V c (Pipeline.arrRef spec7 4) (((cfg7.win 4).blk t).view.emb (ix2 o 0 : S64x1.Idx)) = _
  refine congrArg _ (funext fun d => Fin.ext ?_)
  match d with
  | ⟨0, _⟩ => show win7_4.index t (0 : Fin 2) * 64 + 1 * o.val = o.val; omega
  | ⟨1, _⟩ => show win7_4.index t (1 : Fin 2) * 1 + 1 * 0 = 0; omega

theorem flushed_bn :
    (dat7 (F := Ideal) V c).flushed 5 t = ((cfg7.win 5).blk t).view.read (Elt Ideal)
      (bnK (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 (F := Ideal) V c).after 5 t) = _
  rw [after7_5]
  unfold out7_5
  rw [View.canon_unit_zero hz3_lin]
  simp only [View.ld_unit_zero (S := S1x64x2048) hz3_lin, View.ld_unit_zero (S := S64x1) hz2_lin]
  funext j
  obtain ⟨a, o, w, rfl⟩ : ∃ (a : Fin 1) (o : Fin 64) (w : Fin 2048), j = (ix3 a o w : S1x64x2048.Idx) :=
    ⟨j 0, j 1, j 2, eq_ix3 (n0 := 1) (n1 := 64) (n2 := 2048) j⟩
  have hn : win7_5.index t (0 : Fin 3) < 8 := (idx_facts_bn t).2.2.2.2.2.2.2.2.2.2.2.1
  show k7_pay1 (iblk7 V c 0 t) (iblk7 V c 2 t) (iblk7 V c 1 t) (iblk7 V c 3 t) (iblk7 V c 4 t) (ix3 a o w)
    = bnK (V c (Pipeline.arrRef spec7 0)) (V c (Pipeline.arrRef spec7 1)) (V c (Pipeline.arrRef spec7 2)) (V c (Pipeline.arrRef spec7 3)) (V c (Pipeline.arrRef spec7 4))
        (((cfg7.win 5).blk t).view.emb (ix3 a o w : S1x64x2048.Idx))
  rw [emb_out_bn t a o w hn]
  exact point_bn _ _ _ _ _ _ _ _ _ _ a o w ⟨win7_5.index t (0 : Fin 3), hn⟩ (read_slab_bn V c t a o w hn) (read_mean_bn V c t o) (read_var_bn V c t o) (read_scale_bn V c t o) (read_shift_bn V c t o)

end Blocks

theorem mem_blk_bn (t : Fin cfg7.N) (i : S8x64x2048.Idx) :
    i ∈ ((cfg7.win 5).blk t).view.set ↔ ∀ a : Fin 3, win7_5.index t a * S1x64x2048.size a ≤ (i a).val ∧ (i a).val < win7_5.index t a * S1x64x2048.size a + S1x64x2048.size a := by
  show i ∈ ((View.whole main_v18).slice (win7_5.rect t)).set ↔ _
  rw [View.set_slice_whole, Rect.mem_set_unit]
  exact Iff.rfl

theorem cover_bn (i : S8x64x2048.Idx) : ∃ t : Fin cfg7.N, (cfg7.win 5).flush t = true ∧ i ∈ ((cfg7.win 5).blk t).view.set :=
  let ⟨t, h⟩ := cover_rows _ idx_onto_bn i
  ⟨t, flush7_5 t, (mem_blk_bn t i).mpr h⟩

theorem arr_bn (V : (c : Dev nD) → (b : Ref sig .tc) → Buf (Elt Ideal) ((c : Thread nD τ).loc b)) (c : Dev nD) :
    (dat7 (F := Ideal) V c).arrAt 5 cfg7.N = bnK (V c (Pipeline.arrRef spec7 0)) (V c (Pipeline.arrRef spec7 1)) (V c (Pipeline.arrRef spec7 2)) (V c (Pipeline.arrRef spec7 3)) (V c (Pipeline.arrRef spec7 4)) := by
  exact (dat7 (F := Ideal) V c).arrAt_eq_of_cover 5 _ (fun t _ => flushed_bn V c t) cover_bn

end Cert.KernelIdeal.Hand

end
-- ==== Proof.KernelIdealValue.Final.lean ====
import proofs.«142868_j70317204570386_1_alg».proof.Proof.KernelIdealFrame.Fold
import proofs.«142868_j70317204570386_1_alg».proof.Proof.KernelIdealValue.Hops
import proofs.«142868_j70317204570386_1_alg».proof.Proof.KernelIdealValue.Lin
import proofs.«142868_j70317204570386_1_alg».proof.Proof.KernelIdealValue.Bn
import proofs.«142868_j70317204570386_1_alg».proof.Proof.Gen.KernelIdeal.Regions
import Idealize.ShloMosaic.Lib.StableHlo.Run
import proofs.«142868_j70317204570386_1_alg».proof.Proof.KernelTerm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

section Host
variable (V : Valuation τ sig (Elt Ideal))

private theorem host0_v0 : StableHlo.after hostOps0 V main_v0
    = transpose S8x32x2048 [0, 2, 1] (V main_arg0) transposes_S8x2048x32_S8x32x2048_0_2_1 := by
  after_results

private theorem host6_v7 : StableHlo.after hostOps6 V main_v7
    = catK (V main_v0) (V main_v1) (V main_v2) (V main_v3)
        (V main_v4) (V main_v5) (V main_v6) := by
  after_results
  rfl

private theorem host6_v8 : StableHlo.after hostOps6 V main_v8
    = broadcastInDim S64x1 ![0] bcast_S64_S64x1_0 (V main_arg5) := by
  after_results

private theorem host7_v12 : StableHlo.after hostOps7 V main_v12 = meanK (V main_v9) := by
  after_results
  rfl

private theorem host7_c : StableHlo.after hostOps7 V main_c = constantI S_ 32 0#32 := by
  after_results

private theorem host7_1_v13 (hc : V main_c = constantI S_ 32 0#32) :
    StableHlo.after hostOps7_1 V main_v13 = varK (V main_v9) := by
  after_results_simp
  rw [hc]
  rfl

private theorem host7_2_v14 : StableHlo.after hostOps7_2 V main_v14
    = broadcastInDim S64x1 ![0] bcast_S64_S64x1_0 (V main_v12) := by
  after_results
private theorem host7_2_v15 : StableHlo.after hostOps7_2 V main_v15
    = broadcastInDim S64x1 ![0] bcast_S64_S64x1_0 (V main_v13) := by
  after_results
private theorem host7_2_v16 : StableHlo.after hostOps7_2 V main_v16
    = broadcastInDim S64x1 ![0] bcast_S64_S64x1_0 (V main_arg6) := by
  after_results
private theorem host7_2_v17 : StableHlo.after hostOps7_2 V main_v17
    = broadcastInDim S64x1 ![0] bcast_S64_S64x1_0 (V main_arg7) := by
  after_results

private theorem host8_v19 : StableHlo.after hostOps8 V main_v19
    = transpose S8x2048x64 [0, 2, 1] (V main_v18) transposes_S8x64x2048_S8x2048x64_0_2_1 := by
  after_results

end Host

private theorem keepC0 (b : Ref sig .tc) (h : b ≠ main_v1) : W2 (F := Ideal) m ρ c b = W1 m ρ c b :=
  step_keep (W1 m ρ) (dat0 (V1 m ρ)) c launch0.win.arr_inj (fun _ => rfl) b fun w e =>
    (by decide : ∀ w : Fin cfg0.W, Pipeline.arrRef spec0 w ≠ main_v1 → (cfg0.win w).isOut = false) w (e ▸ h)

private theorem keepC1 (b : Ref sig .tc) (h : b ≠ main_v2) : W3 (F := Ideal) m ρ c b = W2 m ρ c b :=
  step_keep (W2 m ρ) (dat1 (V2 m ρ)) c launch1.win.arr_inj (fun _ => rfl) b fun w e =>
    (by decide : ∀ w : Fin cfg1.W, Pipeline.arrRef spec1 w ≠ main_v2 → (cfg1.win w).isOut = false) w (e ▸ h)

private theorem keepC2 (b : Ref sig .tc) (h : b ≠ main_v3) : W4 (F := Ideal) m ρ c b = W3 m ρ c b :=
  step_keep (W3 m ρ) (dat2 (V3 m ρ)) c launch2.win.arr_inj (fun _ => rfl) b fun w e =>
    (by decide : ∀ w : Fin cfg2.W, Pipeline.arrRef spec2 w ≠ main_v3 → (cfg2.win w).isOut = false) w (e ▸ h)

private theorem keepC3 (b : Ref sig .tc) (h : b ≠ main_v4) : W5 (F := Ideal) m ρ c b = W4 m ρ c b :=
  step_keep (W4 m ρ) (dat3 (V4 m ρ)) c launch3.win.arr_inj (fun _ => rfl) b fun w e =>
    (by decide : ∀ w : Fin cfg3.W, Pipeline.arrRef spec3 w ≠ main_v4 → (cfg3.win w).isOut = false) w (e ▸ h)

private theorem keepC4 (b : Ref sig .tc) (h : b ≠ main_v5) : W6 (F := Ideal) m ρ c b = W5 m ρ c b :=
  step_keep (W5 m ρ) (dat4 (V5 m ρ)) c launch4.win.arr_inj (fun _ => rfl) b fun w e =>
    (by decide : ∀ w : Fin cfg4.W, Pipeline.arrRef spec4 w ≠ main_v5 → (cfg4.win w).isOut = false) w (e ▸ h)

private theorem keepC5 (b : Ref sig .tc) (h : b ≠ main_v6) : W7 (F := Ideal) m ρ c b = W6 m ρ c b :=
  step_keep (W6 m ρ) (dat5 (V6 m ρ)) c launch5.win.arr_inj (fun _ => rfl) b fun w e =>
    (by decide : ∀ w : Fin cfg5.W, Pipeline.arrRef spec5 w ≠ main_v6 → (cfg5.win w).isOut = false) w (e ▸ h)

private theorem keepC6 (b : Ref sig .tc) (h : b ≠ main_v9) : W9 (F := Ideal) m ρ c b = W8 m ρ c b :=
  step_keep (W8 m ρ) (dat6 (V8 m ρ)) c launch6.win.arr_inj (fun _ => rfl) b fun w e =>
    (by decide : ∀ w : Fin cfg6.W, Pipeline.arrRef spec6 w ≠ main_v9 → (cfg6.win w).isOut = false) w (e ▸ h)

private theorem keep1 (b : Ref sig .tc) (h : b ∉ hostOps0_W) :
    W1 (F := Ideal) m ρ c b = W0 m ρ c b :=
  StableHlo.after_of_writes_sub hostOps0 _ hostOps0_writes h
private theorem keep8 (b : Ref sig .tc) (h : b ∉ hostOps6_W) :
    W8 (F := Ideal) m ρ c b = W7 m ρ c b :=
  StableHlo.after_of_writes_sub hostOps6 _ hostOps6_writes h
private theorem keep10 (b : Ref sig .tc) (h : b ∉ hostOps7_W) :
    W10 (F := Ideal) m ρ c b = W9 m ρ c b :=
  StableHlo.after_of_writes_sub hostOps7 _ hostOps7_writes h
private theorem keep11 (b : Ref sig .tc) (h : b ∉ hostOps7_1_W) :
    W11 (F := Ideal) m ρ c b = W10 m ρ c b :=
  StableHlo.after_of_writes_sub hostOps7_1 _ hostOps7_1_writes h
private theorem keep12 (b : Ref sig .tc) (h : b ∉ hostOps7_2_W) :
    W12 (F := Ideal) m ρ c b = W11 m ρ c b :=
  StableHlo.after_of_writes_sub hostOps7_2 _ hostOps7_2_writes h

private abbrev aL (b : Ref sig .tc) : Buf (Elt Ideal) ((c.tc : Thread nD τ).loc b) := m ((c.tc : Thread nD τ).loc b)

private abbrev args : List (Ref sig .tc) := [main_arg0, main_arg1, main_arg2, main_arg3, main_arg4, main_arg5, main_arg6, main_arg7]

private theorem W1_arg (b : Ref sig .tc) (hb : b ∈ args) : W1 (F := Ideal) m ρ c b = aL m c b :=
  (keep1 m ρ c b ((by decide : ∀ b ∈ args, b ∉ hostOps0_W) b hb)).trans rfl
private theorem W2_arg (b : Ref sig .tc) (hb : b ∈ args) : W2 (F := Ideal) m ρ c b = aL m c b :=
  (keepC0 m ρ c b ((by decide : ∀ b ∈ args, b ≠ main_v1) b hb)).trans (W1_arg m ρ c b hb)
private theorem W3_arg (b : Ref sig .tc) (hb : b ∈ args) : W3 (F := Ideal) m ρ c b = aL m c b :=
  (keepC1 m ρ c b ((by decide : ∀ b ∈ args, b ≠ main_v2) b hb)).trans (W2_arg m ρ c b hb)
private theorem W4_arg (b : Ref sig .tc) (hb : b ∈ args) : W4 (F := Ideal) m ρ c b = aL m c b :=
  (keepC2 m ρ c b ((by decide : ∀ b ∈ args, b ≠ main_v3) b hb)).trans (W3_arg m ρ c b hb)
private theorem W5_arg (b : Ref sig .tc) (hb : b ∈ args) : W5 (F := Ideal) m ρ c b = aL m c b :=
  (keepC3 m ρ c b ((by decide : ∀ b ∈ args, b ≠ main_v4) b hb)).trans (W4_arg m ρ c b hb)
private theorem W6_arg (b : Ref sig .tc) (hb : b ∈ args) : W6 (F := Ideal) m ρ c b = aL m c b :=
  (keepC4 m ρ c b ((by decide : ∀ b ∈ args, b ≠ main_v5) b hb)).trans (W5_arg m ρ c b hb)
private theorem W7_arg (b : Ref sig .tc) (hb : b ∈ args) : W7 (F := Ideal) m ρ c b = aL m c b :=
  (keepC5 m ρ c b ((by decide : ∀ b ∈ args, b ≠ main_v6) b hb)).trans (W6_arg m ρ c b hb)
private theorem W8_arg (b : Ref sig .tc) (hb : b ∈ args) : W8 (F := Ideal) m ρ c b = aL m c b :=
  (keep8 m ρ c b ((by decide : ∀ b ∈ args, b ∉ hostOps6_W) b hb)).trans (W7_arg m ρ c b hb)
private theorem W9_arg (b : Ref sig .tc) (hb : b ∈ args) : W9 (F := Ideal) m ρ c b = aL m c b :=
  (keepC6 m ρ c b ((by decide : ∀ b ∈ args, b ≠ main_v9) b hb)).trans (W8_arg m ρ c b hb)
private theorem W10_arg (b : Ref sig .tc) (hb : b ∈ args) : W10 (F := Ideal) m ρ c b = aL m c b :=
  (keep10 m ρ c b ((by decide : ∀ b ∈ args, b ∉ hostOps7_W) b hb)).trans (W9_arg m ρ c b hb)
private theorem W11_arg (b : Ref sig .tc) (hb : b ∈ args) : W11 (F := Ideal) m ρ c b = aL m c b :=
  (keep11 m ρ c b ((by decide : ∀ b ∈ args, b ∉ hostOps7_1_W) b hb)).trans (W10_arg m ρ c b hb)

private abbrev xT (x : FVec Ideal S8x2048x32 .f32) : FVec Ideal S8x32x2048 .f32 :=
  transpose S8x32x2048 [0, 2, 1] x transposes_S8x2048x32_S8x32x2048_0_2_1

private abbrev colT (u : FVec Ideal S64 .f32) : FVec Ideal S64x1 .f32 := broadcastInDim S64x1 ![0] bcast_S64_S64x1_0 u

private abbrev sT (x : FVec Ideal S8x2048x32 .f32) (A0 A1 A2 : FVec Ideal S8x2048x2048 .f32) (W : FVec Ideal S64x224 .f32)
    (b : FVec Ideal S64 .f32) : FVec Ideal S8x64x2048 .f32 :=
  linK (catK (xT x) (hopK A0 (xT x)) (hopK A0 (hopK A0 (xT x))) (hopK A1 (xT x)) (hopK A1 (hopK A1 (xT x))) (hopK A2 (xT x))
    (hopK A2 (hopK A2 (xT x)))) W (colT b)

private theorem linK_congr {f f' : FVec Ideal S8x224x2048 .f32} {W W' : FVec Ideal S64x224 .f32} {b b' : FVec Ideal S64x1 .f32}
    (hf : f = f') (hW : W = W') (hb : b = b') : linK f W b = linK f' W' b' := by subst hf hW hb; rfl
private theorem bnK_congr {s s' : FVec Ideal S8x64x2048 .f32} {u1 u1' u2 u2' u3 u3' u4 u4' : FVec Ideal S64x1 .f32}
    (hs : s = s') (h1 : u1 = u1') (h2 : u2 = u2') (h3 : u3 = u3') (h4 : u4 = u4') :
    bnK s u1 u2 u3 u4 = bnK s' u1' u2' u3' u4' := by subst hs h1 h2 h3 h4; rfl
private theorem catK_congr {u0 u0' u1 u1' u2 u2' u3 u3' u4 u4' u5 u5' u6 u6' : FVec Ideal S8x32x2048 .f32}
    (h0 : u0 = u0') (h1 : u1 = u1') (h2 : u2 = u2') (h3 : u3 = u3') (h4 : u4 = u4') (h5 : u5 = u5') (h6 : u6 = u6') :
    catK u0 u1 u2 u3 u4 u5 u6 = catK u0' u1' u2' u3' u4' u5' u6' := by subst h0 h1 h2 h3 h4 h5 h6; rfl

private abbrev x0L : FVec Ideal S8x32x2048 .f32 := xT (aL m c main_arg0)
private abbrev sL : FVec Ideal S8x64x2048 .f32 :=
  sT (aL m c main_arg0) (aL m c main_arg1) (aL m c main_arg2)
    (aL m c main_arg3) (aL m c main_arg4) (aL m c main_arg5)

theorem W1_v0 : W1 (F := Ideal) m ρ c main_v0 = x0L m c :=
  (host0_v0 (W0 m ρ c)).trans rfl

theorem W2_v1 : W2 (F := Ideal) m ρ c main_v1 = hopK (aL m c main_arg1) (x0L m c) :=
  (step_arr _ _ c launch0.win.arr_inj 2).trans ((arr_hop0 (V1 m ρ) c).trans (congrArg₂ hopK (W1_arg m ρ c main_arg1 (by decide)) (W1_v0 m ρ c)))

theorem W3_v2 : W3 (F := Ideal) m ρ c main_v2 = hopK (aL m c main_arg1) (hopK (aL m c main_arg1) (x0L m c)) :=
  (step_arr _ _ c launch1.win.arr_inj 2).trans ((arr_hop1 (V2 m ρ) c).trans (congrArg₂ hopK (W2_arg m ρ c main_arg1 (by decide)) (W2_v1 m ρ c)))
private theorem W3_v0 : W3 (F := Ideal) m ρ c main_v0 = x0L m c :=
  (keepC1 m ρ c main_v0 (by decide)).trans ((keepC0 m ρ c main_v0 (by decide)).trans (W1_v0 m ρ c))

theorem W4_v3 : W4 (F := Ideal) m ρ c main_v3 = hopK (aL m c main_arg2) (x0L m c) :=
  (step_arr _ _ c launch2.win.arr_inj 2).trans ((arr_hop2 (V3 m ρ) c).trans (congrArg₂ hopK (W3_arg m ρ c main_arg2 (by decide)) (W3_v0 m ρ c)))

theorem W5_v4 : W5 (F := Ideal) m ρ c main_v4 = hopK (aL m c main_arg2) (hopK (aL m c main_arg2) (x0L m c)) :=
  (step_arr _ _ c launch3.win.arr_inj 2).trans ((arr_hop3 (V4 m ρ) c).trans (congrArg₂ hopK (W4_arg m ρ c main_arg2 (by decide)) (W4_v3 m ρ c)))
private theorem W5_v0 : W5 (F := Ideal) m ρ c main_v0 = x0L m c :=
  (keepC3 m ρ c main_v0 (by decide)).trans ((keepC2 m ρ c main_v0 (by decide)).trans (W3_v0 m ρ c))

theorem W6_v5 : W6 (F := Ideal) m ρ c main_v5 = hopK (aL m c main_arg3) (x0L m c) :=
  (step_arr _ _ c launch4.win.arr_inj 2).trans ((arr_hop4 (V5 m ρ) c).trans (congrArg₂ hopK (W5_arg m ρ c main_arg3 (by decide)) (W5_v0 m ρ c)))

theorem W7_v6 : W7 (F := Ideal) m ρ c main_v6 = hopK (aL m c main_arg3) (hopK (aL m c main_arg3) (x0L m c)) :=
  (step_arr _ _ c launch5.win.arr_inj 2).trans ((arr_hop5 (V6 m ρ) c).trans (congrArg₂ hopK (W6_arg m ρ c main_arg3 (by decide)) (W6_v5 m ρ c)))

private theorem W7_v0 : W7 (F := Ideal) m ρ c main_v0 = x0L m c :=
  (keepC5 m ρ c main_v0 (by decide)).trans ((keepC4 m ρ c main_v0 (by decide)).trans (W5_v0 m ρ c))
private theorem W7_v1 : W7 (F := Ideal) m ρ c main_v1 = hopK (aL m c main_arg1) (x0L m c) :=
  (keepC5 m ρ c main_v1 (by decide)).trans <| (keepC4 m ρ c main_v1 (by decide)).trans <| (keepC3 m ρ c main_v1 (by decide)).trans <|
    (keepC2 m ρ c main_v1 (by decide)).trans <| (keepC1 m ρ c main_v1 (by decide)).trans (W2_v1 m ρ c)
private theorem W7_v2 : W7 (F := Ideal) m ρ c main_v2 = hopK (aL m c main_arg1) (hopK (aL m c main_arg1) (x0L m c)) :=
  (keepC5 m ρ c main_v2 (by decide)).trans <| (keepC4 m ρ c main_v2 (by decide)).trans <| (keepC3 m ρ c main_v2 (by decide)).trans <|
    (keepC2 m ρ c main_v2 (by decide)).trans (W3_v2 m ρ c)
private theorem W7_v3 : W7 (F := Ideal) m ρ c main_v3 = hopK (aL m c main_arg2) (x0L m c) :=
  (keepC5 m ρ c main_v3 (by decide)).trans <| (keepC4 m ρ c main_v3 (by decide)).trans <| (keepC3 m ρ c main_v3 (by decide)).trans (W4_v3 m ρ c)
private theorem W7_v4 : W7 (F := Ideal) m ρ c main_v4 = hopK (aL m c main_arg2) (hopK (aL m c main_arg2) (x0L m c)) :=
  (keepC5 m ρ c main_v4 (by decide)).trans <| (keepC4 m ρ c main_v4 (by decide)).trans (W5_v4 m ρ c)
private theorem W7_v5 : W7 (F := Ideal) m ρ c main_v5 = hopK (aL m c main_arg3) (x0L m c) :=
  (keepC5 m ρ c main_v5 (by decide)).trans (W6_v5 m ρ c)

theorem W8_v7 : W8 (F := Ideal) m ρ c main_v7
    = catK (x0L m c) (hopK (aL m c main_arg1) (x0L m c)) (hopK (aL m c main_arg1) (hopK (aL m c main_arg1) (x0L m c))) (hopK (aL m c main_arg2) (x0L m c)) (hopK (aL m c main_arg2) (hopK (aL m c main_arg2) (x0L m c))) (hopK (aL m c main_arg3) (x0L m c))
        (hopK (aL m c main_arg3) (hopK (aL m c main_arg3) (x0L m c))) :=
  (host6_v7 (W7 m ρ c)).trans (catK_congr (W7_v0 m ρ c) (W7_v1 m ρ c) (W7_v2 m ρ c) (W7_v3 m ρ c) (W7_v4 m ρ c) (W7_v5 m ρ c) (W7_v6 m ρ c))

theorem W8_v8 : W8 (F := Ideal) m ρ c main_v8 = colT (aL m c main_arg5) :=
  (host6_v8 (W7 m ρ c)).trans (congrArg colT (W7_arg m ρ c main_arg5 (by decide)))

theorem W9_v9 : W9 (F := Ideal) m ρ c main_v9 = sL m c :=
  (step_arr _ _ c launch6.win.arr_inj 3).trans ((arr_lin (V8 m ρ) c).trans (linK_congr (W8_v7 m ρ c) (W8_arg m ρ c main_arg4 (by decide)) (W8_v8 m ρ c)))

theorem W10_v12 : W10 (F := Ideal) m ρ c main_v12 = meanK (sL m c) :=
  (host7_v12 (W9 m ρ c)).trans (congrArg meanK (W9_v9 m ρ c))
private theorem W10_v9 : W10 (F := Ideal) m ρ c main_v9 = sL m c :=
  (keep10 m ρ c main_v9 (by decide)).trans (W9_v9 m ρ c)
private theorem W10_c : W10 (F := Ideal) m ρ c main_c = constantI S_ 32 0#32 :=
  host7_c (W9 m ρ c)

theorem W11_v13 : W11 (F := Ideal) m ρ c main_v13 = varK (sL m c) :=
  (host7_1_v13 (W10 m ρ c) (W10_c m ρ c)).trans (congrArg varK (W10_v9 m ρ c))
private theorem W11_v12 : W11 (F := Ideal) m ρ c main_v12 = meanK (sL m c) :=
  (keep11 m ρ c main_v12 (by decide)).trans (W10_v12 m ρ c)
private theorem W11_v9 : W11 (F := Ideal) m ρ c main_v9 = sL m c :=
  (keep11 m ρ c main_v9 (by decide)).trans (W10_v9 m ρ c)
private theorem W12_v9 : W12 (F := Ideal) m ρ c main_v9 = sL m c :=
  (keep12 m ρ c main_v9 (by decide)).trans (W11_v9 m ρ c)

theorem W12_v14 : W12 (F := Ideal) m ρ c main_v14 = colT (meanK (sL m c)) :=
  (host7_2_v14 (W11 m ρ c)).trans (congrArg colT (W11_v12 m ρ c))
theorem W12_v15 : W12 (F := Ideal) m ρ c main_v15 = colT (varK (sL m c)) :=
  (host7_2_v15 (W11 m ρ c)).trans (congrArg colT (W11_v13 m ρ c))
theorem W12_v16 : W12 (F := Ideal) m ρ c main_v16 = colT (aL m c main_arg6) :=
  (host7_2_v16 (W11 m ρ c)).trans (congrArg colT (W11_arg m ρ c main_arg6 (by decide)))
theorem W12_v17 : W12 (F := Ideal) m ρ c main_v17 = colT (aL m c main_arg7) :=
  (host7_2_v17 (W11 m ρ c)).trans (congrArg colT (W11_arg m ρ c main_arg7 (by decide)))

theorem W13_v18 : W13 (F := Ideal) m ρ c main_v18
    = bnK (sL m c) (colT (meanK (sL m c))) (colT (varK (sL m c))) (colT (aL m c main_arg6)) (colT (aL m c main_arg7)) :=
  (step_arr _ _ c launch7.win.arr_inj 5).trans ((arr_bn (V12 m ρ) c).trans
    (bnK_congr (W12_v9 m ρ c) (W12_v14 m ρ c) (W12_v15 m ρ c) (W12_v16 m ρ c) (W12_v17 m ρ c)))

theorem W14_result (m : (ℓ : Loc nD τ sig) → Buf (Elt Ideal) ℓ) (ρ : Dev nD → PrngReg) (c : Dev nD) :
    W14 (F := Ideal) m ρ c (Proc.devRef .tc main_v19) = kernelTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (host8_v19 (W13 m ρ c)).trans
    ((congrArg (fun o : FVec Ideal S8x64x2048 .f32 => transpose S8x2048x64 [0, 2, 1] o transposes_S8x64x2048_S8x2048x64_0_2_1) (W13_v18 m ρ c)).trans rfl)

end Cert.KernelIdeal.Hand

end
-- ==== Proof.RefTerm.lean ====
import proofs.«142868_j70317204570386_1_alg».proof.ReferenceIdeal
import proofs.«142868_j70317204570386_1_alg».proof.Proof.Gen.ReferenceIdeal
import Idealize.ShloMosaic.PureOps.Ideal

noncomputable section

namespace Cert.ReferenceIdeal.Hand

open Cert.ReferenceIdeal Cert.ReferenceIdeal.Gen
open Idealize.ShloMosaic

def hopR (A : FVec Ideal S8x2048x2048 .f32) (h : FVec Ideal S8x2048x32 .f32) : FVec Ideal S8x2048x32 .f32 :=
  Host.dotGeneral dot_S8x2048x2048_S8x2048x32_S8x2048x32_1_1_2_2_0_0 none A h

def catR (u0 u1 u2 u3 u4 u5 u6 : FVec Ideal S8x2048x32 .f32) : FVec Ideal S8x2048x224 .f32 :=
  concatenate S8x2048x224 2 [⟨S8x2048x32, u0⟩, ⟨S8x2048x32, u1⟩, ⟨S8x2048x32, u2⟩, ⟨S8x2048x32, u3⟩, ⟨S8x2048x32, u4⟩, ⟨S8x2048x32, u5⟩, ⟨S8x2048x32, u6⟩] concatenates_S8x2048x32_S8x2048x32_S8x2048x32_S8x2048x32_S8x2048x32_S8x2048x32_S8x2048x32_S8x2048x224_d2

def spreadR (u : FVec Ideal S64 .f32) : FVec Ideal S8x2048x64 .f32 :=
  broadcastInDim S8x2048x64 ![0, 1, 2] bcast_S1x1x64_S8x2048x64_0_1_2 (broadcastInDim S1x1x64 ![2] bcast_S64_S1x1x64_2 u)

def linR (f : FVec Ideal S8x2048x224 .f32) (W : FVec Ideal S64x224 .f32) (b : FVec Ideal S64 .f32) : FVec Ideal S8x2048x64 .f32 :=
  addf (Host.dotGeneral dot_S8x2048x224_S64x224_S8x2048x64_2_1_01_0_n_n none f W) (spreadR b)

def meanR (s : FVec Ideal S8x2048x64 .f32) : FVec Ideal S64 .f32 :=
  Host.divf (Host.reduceAdd s (constant S_ .f32 0x00000000#32) reducesTo_S8x2048x64_S64_d0_1 h_S_)
    (broadcastInDim S64 ![] bcast_S_S64 (constant S_ .f32 0x46800000#32))

def varTailR (ssq : FVec Ideal S64 .f32) : FVec Ideal S64 .f32 :=
  let v8 : FVec Ideal S_ .f32 := subf (constant S_ .f32 0x46800000#32) (sitofp .f32 (constantI S_ 32 0#32))
  select (broadcastInDim S64 ![] bcast_S_S64 (cmpf .ogt v8 (constant S_ .f32 0x00000000#32)))
    (Host.divf ssq (broadcastInDim S64 ![] bcast_S_S64 v8))
    (broadcastInDim S64 ![] bcast_S_S64 (id (constant S_ .f32 0x7FC00000#32)))

def devSqR (s : FVec Ideal S8x2048x64 .f32) : FVec Ideal S8x2048x64 .f32 :=
  let v0 : FVec Ideal S64 .f32 := Host.reduceAdd s (constant S_ .f32 0x00000000#32) reducesTo_S8x2048x64_S64_d0_1 h_S_
  let v3 : FVec Ideal S1x1x64 .f32 := Host.divf (broadcastInDim S1x1x64 ![2] bcast_S64_S1x1x64_2 v0) (broadcastInDim S1x1x64 ![] bcast_S_S1x1x64 (constant S_ .f32 0x46800000#32))
  let v5 : FVec Ideal S8x2048x64 .f32 := subf s (broadcastInDim S8x2048x64 ![0, 1, 2] bcast_S1x1x64_S8x2048x64_0_1_2 v3)
  mulf v5 v5

def varR (s : FVec Ideal S8x2048x64 .f32) : FVec Ideal S64 .f32 :=
  varTailR (Host.reduceAdd (devSqR s) (constant S_ .f32 0x00000000#32) reducesTo_S8x2048x64_S64_d0_1 h_S_)

def outR (s : FVec Ideal S8x2048x64 .f32) (mean var gamma beta : FVec Ideal S64 .f32) : FVec Ideal S8x2048x64 .f32 :=
  addf (mulf (mulf (subf s (spreadR mean)) (spreadR (Host.rsqrt (addf var (broadcastInDim S64 ![] bcast_S_S64 (constant S_ .f32 0x3727C5AC#32)))))) (spreadR gamma)) (spreadR beta)

def refTerm (x : FVec Ideal S8x2048x32 .f32) (A0 A1 A2 : FVec Ideal S8x2048x2048 .f32) (W : FVec Ideal S64x224 .f32)
    (b gamma beta : FVec Ideal S64 .f32) : FVec Ideal S8x2048x64 .f32 :=
  let h1 := hopR A0 x
  let h2 := hopR A0 h1
  let h3 := hopR A1 x
  let h4 := hopR A1 h3
  let h5 := hopR A2 x
  let h6 := hopR A2 h5
  let s := linR (catR x h1 h2 h3 h4 h5 h6) W b
  outR s (meanR s) (varR s) gamma beta

end Cert.ReferenceIdeal.Hand

end
-- ==== Proof.LibNary7.lean ====
import Idealize.ShloMosaic.Lib.StableHlo.Run

noncomputable section

namespace Idealize.ShloMosaic.StableHlo

variable {τ : Topo} {sig : RefSig} {Val : EltTy → Type}

theorem nary7_result {x0 x1 x2 x3 x4 x5 x6 y : Ref sig .tc}
    (f : ((k : Fin 7) → ((![x0, x1, x2, x3, x4, x5, x6] : Fin 7 → Ref sig .tc) k).ty.Contents Val) → y.ty.Contents Val) (hxs hy)
    (F : Valuation τ sig Val) :
    (nary (τ := τ) ![x0, x1, x2, x3, x4, x5, x6] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [nary_result]; congr 1; funext k; fin_cases k <;> rfl

end Idealize.ShloMosaic.StableHlo

end
-- ==== Proof.RefRun.lean ====
import proofs.«142868_j70317204570386_1_alg».proof.Proof.RefTerm
import proofs.«142868_j70317204570386_1_alg».proof.Proof.LibNary7
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

-- the six hops
abbrev opsₐ : List (HloOp τ sig (Elt F)) :=
  [
    binary main_arg1 main_arg0 main_v0 (fun l r => Host.dotGeneral dot_S8x2048x2048_S8x2048x32_S8x2048x32_1_1_2_2_0_0 none l r),
    binary main_arg1 main_v0 main_v1 (fun l r => Host.dotGeneral dot_S8x2048x2048_S8x2048x32_S8x2048x32_1_1_2_2_0_0 none l r),
    binary main_arg2 main_arg0 main_v2 (fun l r => Host.dotGeneral dot_S8x2048x2048_S8x2048x32_S8x2048x32_1_1_2_2_0_0 none l r),
    binary main_arg2 main_v2 main_v3 (fun l r => Host.dotGeneral dot_S8x2048x2048_S8x2048x32_S8x2048x32_1_1_2_2_0_0 none l r),
    binary main_arg3 main_arg0 main_v4 (fun l r => Host.dotGeneral dot_S8x2048x2048_S8x2048x32_S8x2048x32_1_1_2_2_0_0 none l r),
    binary main_arg3 main_v4 main_v5 (fun l r => Host.dotGeneral dot_S8x2048x2048_S8x2048x32_S8x2048x32_1_1_2_2_0_0 none l r) ]

-- the join, the 1×1 convolution and the bias
abbrev ops_b : List (HloOp τ sig (Elt F)) :=
  [
    nary ![main_arg0, main_v0, main_v1, main_v2, main_v3, main_v4, main_v5] main_v6 (fun u => concatenate S8x2048x224 2 [⟨S8x2048x32, u 0⟩, ⟨S8x2048x32, u 1⟩, ⟨S8x2048x32, u 2⟩, ⟨S8x2048x32, u 3⟩, ⟨S8x2048x32, u 4⟩, ⟨S8x2048x32, u 5⟩, ⟨S8x2048x32, u 6⟩] concatenates_S8x2048x32_S8x2048x32_S8x2048x32_S8x2048x32_S8x2048x32_S8x2048x32_S8x2048x32_S8x2048x224_d2),
    binary main_v6 main_arg4 main_v7 (fun l r => Host.dotGeneral dot_S8x2048x224_S64x224_S8x2048x64_2_1_01_0_n_n none l r),
    unary main_arg5 main_v8 (broadcastInDim S1x1x64 ![2] bcast_S64_S1x1x64_2),
    unary main_v8 main_v9 (broadcastInDim S8x2048x64 ![0, 1, 2] bcast_S1x1x64_S8x2048x64_0_1_2),
    binary main_v7 main_v9 main_v10 addf ]

-- mean, variance and the normalisation, reading only main_v10, main_arg6 and main_arg7
abbrev ops₂ : List (HloOp τ sig (Elt F)) :=
  [
    nullary main_cst (constant S_ .f32 0x00000000#32),
    binary main_v10 main_cst main_v11 (fun x v => Host.reduceAdd x v reducesTo_S8x2048x64_S64_d0_1 h_S_),
    nullary main_cst_0 (constant S_ .f32 0x46800000#32),
    unary main_cst_0 main_v12 (broadcastInDim S64 ![] bcast_S_S64),
    binary main_v11 main_v12 main_v13 Host.divf,
    nullary main_c (constantI S_ 32 0#32),
    nullary main_call0_cst (constant S_ .f32 0x00000000#32),
    binary main_v10 main_call0_cst main_call0_v0 (fun x v => Host.reduceAdd x v reducesTo_S8x2048x64_S64_d0_1 h_S_),
    unary main_call0_v0 main_call0_v1 (broadcastInDim S1x1x64 ![2] bcast_S64_S1x1x64_2),
    nullary main_call0_cst_0 (constant S_ .f32 0x46800000#32),
    unary main_call0_cst_0 main_call0_v2 (broadcastInDim S1x1x64 ![] bcast_S_S1x1x64),
    binary main_call0_v1 main_call0_v2 main_call0_v3 Host.divf,
    unary main_call0_v3 main_call0_v4 (broadcastInDim S8x2048x64 ![0, 1, 2] bcast_S1x1x64_S8x2048x64_0_1_2),
    binary main_v10 main_call0_v4 main_call0_v5 subf,
    binary main_call0_v5 main_call0_v5 main_call0_v6 mulf,
    unary main_c main_call0_v7 (sitofp .f32),
    nullary main_call0_cst_1 (constant S_ .f32 0x46800000#32),
    binary main_call0_cst_1 main_call0_v7 main_call0_v8 subf,
    nullary main_call0_cst_2 (constant S_ .f32 0x00000000#32),
    binary main_call0_v6 main_call0_cst_2 main_call0_v9 (fun x v => Host.reduceAdd x v reducesTo_S8x2048x64_S64_d0_1 h_S_),
    unary main_call0_v8 main_call0_v10 (broadcastInDim S64 ![] bcast_S_S64),
    binary main_call0_v9 main_call0_v10 main_call0_v11 Host.divf,
    nullary main_call0_cst_3 (constant S_ .f32 0x00000000#32),
    binary main_call0_v8 main_call0_cst_3 main_call0_v12 (cmpf .ogt),
    nullary main_call0_cst_4 (constant S_ .f32 0x7FC00000#32),
    unary main_call0_cst_4 main_call0_call0_v0 id,
    unary main_call0_call0_v0 main_call0_call0_v1 (broadcastInDim S64 ![] bcast_S_S64),
    ternary main_call0_v12 main_call0_v11 main_call0_call0_v1 main_v14 (fun p a b => select (broadcastInDim S64 ![] bcast_S_S64 p) a b),
    unary main_v13 main_v15 (broadcastInDim S1x1x64 ![2] bcast_S64_S1x1x64_2),
    unary main_v15 main_v16 (broadcastInDim S8x2048x64 ![0, 1, 2] bcast_S1x1x64_S8x2048x64_0_1_2),
    binary main_v10 main_v16 main_v17 subf,
    nullary main_cst_1 (constant S_ .f32 0x3727C5AC#32),
    unary main_cst_1 main_v18 (broadcastInDim S64 ![] bcast_S_S64),
    binary main_v14 main_v18 main_v19 addf,
    unary main_v19 main_v20 Host.rsqrt,
    unary main_v20 main_v21 (broadcastInDim S1x1x64 ![2] bcast_S64_S1x1x64_2),
    unary main_v21 main_v22 (broadcastInDim S8x2048x64 ![0, 1, 2] bcast_S1x1x64_S8x2048x64_0_1_2),
    binary main_v17 main_v22 main_v23 mulf,
    unary main_arg6 main_v24 (broadcastInDim S1x1x64 ![2] bcast_S64_S1x1x64_2),
    unary main_v24 main_v25 (broadcastInDim S8x2048x64 ![0, 1, 2] bcast_S1x1x64_S8x2048x64_0_1_2),
    binary main_v23 main_v25 main_v26 mulf,
    unary main_arg7 main_v27 (broadcastInDim S1x1x64 ![2] bcast_S64_S1x1x64_2),
    unary main_v27 main_v28 (broadcastInDim S8x2048x64 ![0, 1, 2] bcast_S1x1x64_S8x2048x64_0_1_2),
    binary main_v26 main_v28 main_v29 addf ]

abbrev ops : List (HloOp τ sig (Elt F)) := opsₐ ++ ops_b ++ ops₂

set_option maxRecDepth 2048 in
theorem main_eq (c : Dev nD) : main (F := F) c = seq ops := by
  simp only [main, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append, List.Forall, nullary_bufs_sub, unary_bufs_sub, binary_bufs_sub, ternary_bufs_sub,
    nary_bufs_sub, and_self]

theorem after_ops (V : Valuation τ sig (Elt F)) : after ops V = after ops₂ (after ops_b (after opsₐ V)) := by
  rw [StableHlo.after_append, StableHlo.after_append]

end Line

macro "read_stage₁" : tactic =>
  `(tactic| (simp only [after_cons, after_nil]
             repeat (first
               | rw [nary7_result] | rw [binary_result] | rw [unary_result]
               | (rw [binary_result_ne]; rotate_left; decide)
               | (rw [unary_result_ne]; rotate_left; decide)
               | (rw [nary_result_ne]; rotate_left; decide))))

variable (V : Valuation τ sig (Elt Ideal))

theorem hops_v0 : after opsₐ V main_v0 = hopR (V main_arg1) (V main_arg0) := by
  read_stage₁; rfl

theorem hops_v1 : after opsₐ V main_v1 = hopR (V main_arg1) (hopR (V main_arg1) (V main_arg0)) := by
  read_stage₁; rfl

theorem hops_v2 : after opsₐ V main_v2 = hopR (V main_arg2) (V main_arg0) := by
  read_stage₁; rfl

theorem hops_v3 : after opsₐ V main_v3 = hopR (V main_arg2) (hopR (V main_arg2) (V main_arg0)) := by
  read_stage₁; rfl

theorem hops_v4 : after opsₐ V main_v4 = hopR (V main_arg3) (V main_arg0) := by
  read_stage₁; rfl

theorem hops_v5 : after opsₐ V main_v5 = hopR (V main_arg3) (hopR (V main_arg3) (V main_arg0)) := by
  read_stage₁; rfl

theorem hops_arg0 : after opsₐ V main_arg0 = V main_arg0 := by read_stage₁
theorem hops_arg4 : after opsₐ V main_arg4 = V main_arg4 := by read_stage₁
theorem hops_arg5 : after opsₐ V main_arg5 = V main_arg5 := by read_stage₁

theorem join_s : after ops_b V main_v10
    = linR (catR (V main_arg0) (V main_v0) (V main_v1) (V main_v2) (V main_v3) (V main_v4) (V main_v5)) (V main_arg4) (V main_arg5) := by
  read_stage₁; rfl

theorem stage₁_arg6 : after ops_b (after opsₐ V) main_arg6 = V main_arg6 := by read_stage₁
theorem stage₁_arg7 : after ops_b (after opsₐ V) main_arg7 = V main_arg7 := by read_stage₁

theorem stage₂_out : after ops₂ V main_v29
    = outR (V main_v10) (meanR (V main_v10)) (varR (V main_v10)) (V main_arg6) (V main_arg7) := by
  after_results_simp; rfl

theorem out_eq : after ops V main_v29 = refTerm (V main_arg0) (V main_arg1) (V main_arg2) (V main_arg3) (V main_arg4) (V main_arg5) (V main_arg6) (V main_arg7) := by
  rw [after_ops, stage₂_out, join_s, hops_arg0, hops_v0, hops_v1, hops_v2, hops_v3, hops_v4, hops_v5, hops_arg4, hops_arg5,
    stage₁_arg6, stage₁_arg7]
  rfl

theorem arg0_eq : after ops V main_arg0 = V main_arg0 := by rw [after_ops]; after_results_simp
theorem arg1_eq : after ops V main_arg1 = V main_arg1 := by rw [after_ops]; after_results_simp
theorem arg2_eq : after ops V main_arg2 = V main_arg2 := by rw [after_ops]; after_results_simp
theorem arg3_eq : after ops V main_arg3 = V main_arg3 := by rw [after_ops]; after_results_simp
theorem arg4_eq : after ops V main_arg4 = V main_arg4 := by rw [after_ops]; after_results_simp
theorem arg5_eq : after ops V main_arg5 = V main_arg5 := by rw [after_ops]; after_results_simp
theorem arg6_eq : after ops V main_arg6 = V main_arg6 := by rw [after_ops]; after_results_simp
theorem arg7_eq : after ops V main_arg7 = V main_arg7 := by rw [after_ops]; after_results_simp

-- every weakly fair run of the reference ends with main_v29 at refTerm of the arguments, the arguments unchanged
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c => ⟨(h c main_v29).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.Hand

end
-- ==== Proof.Bridge.Defs.lean ====
import proofs.«142868_j70317204570386_1_alg».proof.Proof.KernelTerm
import proofs.«142868_j70317204570386_1_alg».proof.Proof.RefTerm
import Idealize.ShloMosaic.Lib.ValueIdx
import Idealize.ShloMosaic.Lib.Pipeline.Value

noncomputable section

namespace Cert.Bridge

open Idealize.ShloMosaic Idealize.ShloMosaic.ValueIdx

theorem transposes224 : (Cert.ReferenceIdeal.S8x2048x224).Transposes [0, 2, 1] Cert.KernelIdeal.S8x224x2048 := by decide
theorem transposes64 : (Cert.ReferenceIdeal.S8x2048x64).Transposes [0, 2, 1] Cert.KernelIdeal.S8x64x2048 := by decide

def T32 (u : FVec Ideal Cert.ReferenceIdeal.S8x2048x32 .f32) : FVec Ideal Cert.KernelIdeal.S8x32x2048 .f32 :=
  transpose Cert.KernelIdeal.S8x32x2048 [0, 2, 1] u Cert.KernelIdeal.Gen.transposes_S8x2048x32_S8x32x2048_0_2_1

def T224 (u : FVec Ideal Cert.ReferenceIdeal.S8x2048x224 .f32) : FVec Ideal Cert.KernelIdeal.S8x224x2048 .f32 :=
  transpose Cert.KernelIdeal.S8x224x2048 [0, 2, 1] u transposes224

def T64 (u : FVec Ideal Cert.ReferenceIdeal.S8x2048x64 .f32) : FVec Ideal Cert.KernelIdeal.S8x64x2048 .f32 :=
  transpose Cert.KernelIdeal.S8x64x2048 [0, 2, 1] u transposes64

theorem T32_apply (u : FVec Ideal Cert.ReferenceIdeal.S8x2048x32 .f32) (n : Fin 8) (c : Fin 32) (v : Fin 2048) :
    T32 u (ix3 n c v) = u (ix3 n v c) := by
  unfold T32
  exact transpose_apply _ _ _ _ _ (fun b => by match b with | ⟨0, _⟩ => rfl | ⟨1, _⟩ => rfl | ⟨2, _⟩ => rfl)
theorem T224_apply (u : FVec Ideal Cert.ReferenceIdeal.S8x2048x224 .f32) (n : Fin 8) (c : Fin 224) (v : Fin 2048) :
    T224 u (ix3 n c v) = u (ix3 n v c) := by
  unfold T224
  exact transpose_apply _ _ _ _ _ (fun b => by match b with | ⟨0, _⟩ => rfl | ⟨1, _⟩ => rfl | ⟨2, _⟩ => rfl)
theorem T64_apply (u : FVec Ideal Cert.ReferenceIdeal.S8x2048x64 .f32) (n : Fin 8) (c : Fin 64) (v : Fin 2048) :
    T64 u (ix3 n c v) = u (ix3 n v c) := by
  unfold T64
  exact transpose_apply _ _ _ _ _ (fun b => by match b with | ⟨0, _⟩ => rfl | ⟨1, _⟩ => rfl | ⟨2, _⟩ => rfl)

end Cert.Bridge

end
-- ==== Proof.Bridge.Hop.lean ====
import proofs.«142868_j70317204570386_1_alg».proof.Proof.Bridge.Defs
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Idealize.ShloMosaic Idealize.ShloMosaic.ValueIdx
open Cert.KernelIdeal.Hand Cert.ReferenceIdeal.Hand

abbrev hopDims : DotDims Cert.ReferenceIdeal.S8x2048x2048 Cert.ReferenceIdeal.S8x2048x32 Cert.ReferenceIdeal.S8x2048x32 :=
  Cert.ReferenceIdeal.dot_S8x2048x2048_S8x2048x32_S8x2048x32_1_1_2_2_0_0

theorem hop_lhs_0 (i : Cert.ReferenceIdeal.S8x2048x32.Idx) (q : hopDims.contr.Idx) :
    (hopDims.lhsIdx i q 0).val = (i 0).val := by
  unfold DotDims.lhsIdx
  rw [dif_pos (show (0 : Fin Cert.ReferenceIdeal.S8x2048x2048.rank) ∈ hopDims.lhsBatch by decide)]
  rfl

theorem hop_lhs_1 (i : Cert.ReferenceIdeal.S8x2048x32.Idx) (q : hopDims.contr.Idx) :
    (hopDims.lhsIdx i q 1).val = (q ⟨0, by decide⟩).val :=
  hopDims.lhsIdx_val_of_single rfl i q

theorem hop_lhs_2 (i : Cert.ReferenceIdeal.S8x2048x32.Idx) (q : hopDims.contr.Idx) :
    (hopDims.lhsIdx i q 2).val = (i 1).val := by
  unfold DotDims.lhsIdx
  rw [dif_neg (show ¬(2 : Fin Cert.ReferenceIdeal.S8x2048x2048.rank) ∈ hopDims.lhsBatch by decide),
    dif_pos (show (2 : Fin Cert.ReferenceIdeal.S8x2048x2048.rank) ∈ hopDims.lhsNonContracting by decide)]
  rfl

theorem hop_rhs_0 (i : Cert.ReferenceIdeal.S8x2048x32.Idx) (q : hopDims.contr.Idx) :
    (hopDims.rhsIdx i q 0).val = (i 0).val := by
  unfold DotDims.rhsIdx
  rw [dif_pos (show (0 : Fin Cert.ReferenceIdeal.S8x2048x32.rank) ∈ hopDims.rhsBatch by decide)]
  rfl

theorem hop_rhs_1 (i : Cert.ReferenceIdeal.S8x2048x32.Idx) (q : hopDims.contr.Idx) :
    (hopDims.rhsIdx i q 1).val = (q ⟨0, by decide⟩).val :=
  hopDims.rhsIdx_val_of_single rfl i q

theorem hop_rhs_2 (i : Cert.ReferenceIdeal.S8x2048x32.Idx) (q : hopDims.contr.Idx) :
    (hopDims.rhsIdx i q 2).val = (i 2).val := by
  unfold DotDims.rhsIdx
  rw [dif_neg (show ¬(2 : Fin Cert.ReferenceIdeal.S8x2048x32.rank) ∈ hopDims.rhsBatch by decide),
    dif_pos (show (2 : Fin Cert.ReferenceIdeal.S8x2048x32.rank) ∈ hopDims.rhsNonContracting by decide)]
  rfl

theorem hopR_apply (A : FVec Ideal Cert.ReferenceIdeal.S8x2048x2048 .f32) (h : FVec Ideal Cert.ReferenceIdeal.S8x2048x32 .f32)
    (n : Fin 8) (w : Fin 2048) (l : Fin 32) :
    hopR A h (ix3 n w l) = ∑ v : Fin 2048, A (ix3 n v w) * h (ix3 n v l) := by
  show FloatOps.dotGeneral hopDims none _ A h (ix3 n w l) = _
  rw [Ideal.dotGeneral_apply, ← Equiv.sum_comp (contrEquiv1 hopDims 2048 rfl rfl).symm]
  refine Finset.sum_congr rfl fun v _ => ?_
  have hk := contrEquiv1_symm_val hopDims 2048 rfl rfl v
  have el : hopDims.lhsIdx (ix3 n w l) ((contrEquiv1 hopDims 2048 rfl rfl).symm v) = ix3 n v w :=
    funext fun a => Fin.ext (by
      match a with
      | ⟨0, _⟩ => exact hop_lhs_0 _ _
      | ⟨1, _⟩ => exact (hop_lhs_1 _ _).trans hk
      | ⟨2, _⟩ => exact hop_lhs_2 _ _)
  have er : hopDims.rhsIdx (ix3 n w l) ((contrEquiv1 hopDims 2048 rfl rfl).symm v) = ix3 n v l :=
    funext fun a => Fin.ext (by
      match a with
      | ⟨0, _⟩ => exact hop_rhs_0 _ _
      | ⟨1, _⟩ => exact (hop_rhs_1 _ _).trans hk
      | ⟨2, _⟩ => exact hop_rhs_2 _ _)
  rw [el, er]

theorem hopK_apply (A : FVec Ideal Cert.KernelIdeal.S8x2048x2048 .f32) (h : FVec Ideal Cert.KernelIdeal.S8x32x2048 .f32)
    (n : Fin 8) (l : Fin 32) (w : Fin 2048) :
    hopK A h (ix3 n l w) = ∑ v : Fin 2048, h (ix3 n l v) * A (ix3 n v w) := rfl

theorem hop_T (A : FVec Ideal Cert.ReferenceIdeal.S8x2048x2048 .f32) (h : FVec Ideal Cert.ReferenceIdeal.S8x2048x32 .f32) :
    hopK A (T32 h) = T32 (hopR A h) := by
  funext j
  obtain ⟨n, l, w, rfl⟩ : ∃ n l w, j = ix3 n l w := ⟨j 0, j 1, j 2, eq_ix3 j⟩
  rw [T32_apply, hopR_apply, hopK_apply]
  refine Finset.sum_congr rfl fun v _ => ?_
  rw [T32_apply, mul_comm]

theorem catK_apply (u0 u1 u2 u3 u4 u5 u6 : FVec Ideal Cert.KernelIdeal.S8x32x2048 .f32)
    (n : Fin 8) (k : Fin 7) (r : Fin 32) (v : Fin 2048) (c : Fin 224) (hc : c.val = 32 * k.val + r.val) :
    catK u0 u1 u2 u3 u4 u5 u6 (ix3 n c v) = ![u0, u1, u2, u3, u4, u5, u6] k (ix3 n r v) := by
  unfold catK
  have hi : ∀ b : Fin Cert.KernelIdeal.S8x32x2048.rank, b.cast (rfl : Cert.KernelIdeal.S8x32x2048.rank = Cert.KernelIdeal.S8x224x2048.rank) ≠ (1 : Fin Cert.KernelIdeal.S8x224x2048.rank) →
      ((ix3 n r v : Cert.KernelIdeal.S8x32x2048.Idx) b).val = ((ix3 n c v : Cert.KernelIdeal.S8x224x2048.Idx) (b.cast rfl)).val := by
    intro b hb
    match b with
    | ⟨0, _⟩ => rfl
    | ⟨1, _⟩ => exact absurd rfl hb
    | ⟨2, _⟩ => rfl
  exact concatenate_apply_piece (1 : Fin Cert.KernelIdeal.S8x224x2048.rank) _ _ (ix3 n c v) k.val (by simp) Cert.KernelIdeal.S8x32x2048 _
    (by fin_cases k <;> rfl) rfl (32 * k.val) (by fin_cases k <;> rfl) (ix3 n r v) hi (by show 32 * k.val + r.val = c.val; omega)

theorem catR_apply (u0 u1 u2 u3 u4 u5 u6 : FVec Ideal Cert.ReferenceIdeal.S8x2048x32 .f32)
    (n : Fin 8) (k : Fin 7) (r : Fin 32) (v : Fin 2048) (c : Fin 224) (hc : c.val = 32 * k.val + r.val) :
    catR u0 u1 u2 u3 u4 u5 u6 (ix3 n v c) = ![u0, u1, u2, u3, u4, u5, u6] k (ix3 n v r) := by
  unfold catR
  have hi : ∀ b : Fin Cert.ReferenceIdeal.S8x2048x32.rank, b.cast (rfl : Cert.ReferenceIdeal.S8x2048x32.rank = Cert.ReferenceIdeal.S8x2048x224.rank) ≠ (2 : Fin Cert.ReferenceIdeal.S8x2048x224.rank) →
      ((ix3 n v r : Cert.ReferenceIdeal.S8x2048x32.Idx) b).val = ((ix3 n v c : Cert.ReferenceIdeal.S8x2048x224.Idx) (b.cast rfl)).val := by
    intro b hb
    match b with
    | ⟨0, _⟩ => rfl
    | ⟨1, _⟩ => rfl
    | ⟨2, _⟩ => exact absurd rfl hb
  exact concatenate_apply_piece (2 : Fin Cert.ReferenceIdeal.S8x2048x224.rank) _ _ (ix3 n v c) k.val (by simp) Cert.ReferenceIdeal.S8x2048x32 _
    (by fin_cases k <;> rfl) rfl (32 * k.val) (by fin_cases k <;> rfl) (ix3 n v r) hi (by show 32 * k.val + r.val = c.val; omega)

theorem pick_T (u0 u1 u2 u3 u4 u5 u6 : FVec Ideal Cert.ReferenceIdeal.S8x2048x32 .f32)
    (k : Fin 7) (n : Fin 8) (r : Fin 32) (v : Fin 2048) :
    ![T32 u0, T32 u1, T32 u2, T32 u3, T32 u4, T32 u5, T32 u6] k (ix3 n r v) = ![u0, u1, u2, u3, u4, u5, u6] k (ix3 n v r) := by
  fin_cases k <;> exact T32_apply _ n r v

theorem cat_T (u0 u1 u2 u3 u4 u5 u6 : FVec Ideal Cert.ReferenceIdeal.S8x2048x32 .f32) :
    catK (T32 u0) (T32 u1) (T32 u2) (T32 u3) (T32 u4) (T32 u5) (T32 u6) = T224 (catR u0 u1 u2 u3 u4 u5 u6) := by
  funext j
  obtain ⟨n, c, v, rfl⟩ : ∃ (n : Fin 8) (c : Fin 224) (v : Fin 2048), j = ix3 n c v := ⟨j 0, j 1, j 2, eq_ix3 j⟩
  have hk : c.val / 32 < 7 := by have := c.isLt; omega
  have hc : c.val = 32 * (⟨c.val / 32, hk⟩ : Fin 7).val + (⟨c.val % 32, Nat.mod_lt _ (by decide)⟩ : Fin 32).val :=
    (Nat.div_add_mod c.val 32).symm
  rw [T224_apply, catK_apply _ _ _ _ _ _ _ n _ _ v c hc, catR_apply _ _ _ _ _ _ _ n _ _ v c hc]
  exact pick_T u0 u1 u2 u3 u4 u5 u6 _ n _ v

end Cert.Bridge

end
-- ==== Proof.Bridge.Lin.lean ====
import proofs.«142868_j70317204570386_1_alg».proof.Proof.Bridge.Defs
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Idealize.ShloMosaic Idealize.ShloMosaic.ValueIdx
open Cert.KernelIdeal.Hand Cert.ReferenceIdeal.Hand

private abbrev DW : DotDims Cert.ReferenceIdeal.S8x2048x224 Cert.ReferenceIdeal.S64x224 Cert.ReferenceIdeal.S8x2048x64 :=
  Cert.ReferenceIdeal.dot_S8x2048x224_S64x224_S8x2048x64_2_1_01_0_n_n

private theorem lhs_ax0 (i : Cert.ReferenceIdeal.S8x2048x64.Idx) (q : DW.contr.Idx) :
    (DW.lhsIdx i q 0).val = (i 0).val := by
  unfold DotDims.lhsIdx
  rw [dif_neg (show ¬(0 : Fin Cert.ReferenceIdeal.S8x2048x224.rank) ∈ DW.lhsBatch by decide),
    dif_pos (show (0 : Fin Cert.ReferenceIdeal.S8x2048x224.rank) ∈ DW.lhsNonContracting by decide)]
  rfl

private theorem lhs_ax1 (i : Cert.ReferenceIdeal.S8x2048x64.Idx) (q : DW.contr.Idx) :
    (DW.lhsIdx i q 1).val = (i 1).val := by
  unfold DotDims.lhsIdx
  rw [dif_neg (show ¬(1 : Fin Cert.ReferenceIdeal.S8x2048x224.rank) ∈ DW.lhsBatch by decide),
    dif_pos (show (1 : Fin Cert.ReferenceIdeal.S8x2048x224.rank) ∈ DW.lhsNonContracting by decide)]
  rfl

private theorem lhs_ax2 (i : Cert.ReferenceIdeal.S8x2048x64.Idx) (q : DW.contr.Idx) :
    (DW.lhsIdx i q 2).val = (q ⟨0, by decide⟩).val :=
  DW.lhsIdx_val_of_single rfl i q

private theorem rhs_ax0 (i : Cert.ReferenceIdeal.S8x2048x64.Idx) (q : DW.contr.Idx) :
    (DW.rhsIdx i q 0).val = (i 2).val := by
  unfold DotDims.rhsIdx
  rw [dif_neg (show ¬(0 : Fin Cert.ReferenceIdeal.S64x224.rank) ∈ DW.rhsBatch by decide),
    dif_pos (show (0 : Fin Cert.ReferenceIdeal.S64x224.rank) ∈ DW.rhsNonContracting by decide)]
  rfl

private theorem rhs_ax1 (i : Cert.ReferenceIdeal.S8x2048x64.Idx) (q : DW.contr.Idx) :
    (DW.rhsIdx i q 1).val = (q ⟨0, by decide⟩).val :=
  DW.rhsIdx_val_of_single rfl i q

theorem dotW_apply (f : FVec Ideal Cert.ReferenceIdeal.S8x2048x224 .f32) (W : FVec Ideal Cert.ReferenceIdeal.S64x224 .f32)
    (n : Fin 8) (v : Fin 2048) (o : Fin 64) :
    Host.dotGeneral DW none f W (ix3 n v o)
      = ∑ k : Fin 224, f (ix3 (n0 := 8) (n1 := 2048) (n2 := 224) n v k) * W (ix2 (n0 := 64) (n1 := 224) o k) := by
  show FloatOps.dotGeneral DW none _ f W (ix3 n v o) = _
  rw [Ideal.dotGeneral_apply, ← Equiv.sum_comp (contrEquiv1 DW 224 rfl rfl).symm]
  refine Finset.sum_congr rfl fun k _ => ?_
  have hk := contrEquiv1_symm_val DW 224 rfl rfl k
  have el : DW.lhsIdx (ix3 n v o) ((contrEquiv1 DW 224 rfl rfl).symm k) = ix3 n v k :=
    funext fun a => Fin.ext (by
      match a with
      | ⟨0, _⟩ => exact lhs_ax0 _ _
      | ⟨1, _⟩ => exact lhs_ax1 _ _
      | ⟨2, _⟩ => exact (lhs_ax2 _ _).trans hk)
  have er : DW.rhsIdx (ix3 n v o) ((contrEquiv1 DW 224 rfl rfl).symm k) = ix2 o k :=
    funext fun a => Fin.ext (by
      match a with
      | ⟨0, _⟩ => exact rhs_ax0 _ _
      | ⟨1, _⟩ => exact (rhs_ax1 _ _).trans hk)
  rw [el, er]

theorem spreadR_apply (b : FVec Ideal Cert.ReferenceIdeal.S64 .f32) (n : Fin 8) (v : Fin 2048) (o : Fin 64) :
    spreadR b (ix3 n v o) = b (ix1 o) := by
  unfold spreadR
  refine (broadcastInDim_apply _ _ _ (ix3 n v o) (ix3 (n0 := 1) (n1 := 1) (n2 := 64) 0 0 o) (fun a => by
    match a with | ⟨0, _⟩ => rfl | ⟨1, _⟩ => rfl | ⟨2, _⟩ => rfl)).trans ?_
  exact broadcastInDim_apply _ _ _ _ (ix1 o) (fun a => by
    match a with | ⟨0, _⟩ => rfl)

theorem colK_bias_apply (b : FVec Ideal Cert.ReferenceIdeal.S64 .f32) (n : Fin 8) (o : Fin 64) (v : Fin 2048) :
    colK (broadcastInDim Cert.KernelIdeal.S64x1 ![0] Cert.KernelIdeal.Gen.bcast_S64_S64x1_0 b) (ix3 n o v) = b (ix1 o) := by
  unfold colK
  exact broadcastInDim_apply _ _ _ _ (ix1 o) (fun a => by
    match a with | ⟨0, _⟩ => rfl)

theorem lin_T (f : FVec Ideal Cert.ReferenceIdeal.S8x2048x224 .f32) (W : FVec Ideal Cert.ReferenceIdeal.S64x224 .f32) (b : FVec Ideal Cert.ReferenceIdeal.S64 .f32) :
    linK (T224 f) W (broadcastInDim Cert.KernelIdeal.S64x1 ![0] Cert.KernelIdeal.Gen.bcast_S64_S64x1_0 b) = T64 (linR f W b) := by
  funext j
  obtain ⟨n, o, v, rfl⟩ : ∃ (n : Fin 8) (o : Fin 64) (v : Fin 2048), j = ix3 n o v := ⟨j 0, j 1, j 2, eq_ix3 j⟩
  rw [T64_apply]
  unfold linK linR
  rw [addf_apply, addf_apply, colK_bias_apply, spreadR_apply]
  refine congrArg (· + b (ix1 o)) ?_
  refine Eq.trans ?_ (dotW_apply f W n v o).symm
  refine Finset.sum_congr rfl fun k _ => ?_
  show W (ix2 o k) * T224 f (ix3 n k v) = _
  rw [T224_apply, mul_comm]

end Cert.Bridge

end
-- ==== Proof.Bridge.Stats.lean ====
import proofs.«142868_j70317204570386_1_alg».proof.Proof.Bridge.Defs
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Idealize.ShloMosaic Idealize.ShloMosaic.ValueIdx
open Cert.KernelIdeal.Hand Cert.ReferenceIdeal.Hand

theorem dropK_ix3 (n : Fin 8) (c : Fin 64) (v : Fin 2048) :
    Cert.KernelIdeal.Gen.reducesTo_S8x64x2048_S64_d0_2.drop (ix3 n c v) = ix1 c := by
  funext b
  match b with
  | ⟨0, _⟩ => exact Fin.ext (Shape.ReducesTo.drop_apply_val_of_eq _ (ix3 n c v) 0 1)

theorem dropR_ix3 (n : Fin 8) (v : Fin 2048) (c : Fin 64) :
    Cert.ReferenceIdeal.Gen.reducesTo_S8x2048x64_S64_d0_1.drop (ix3 n v c) = ix1 c := by
  funext b
  match b with
  | ⟨0, _⟩ => exact Fin.ext (Shape.ReducesTo.drop_apply_val_of_eq _ (ix3 n v c) 0 2)

theorem reduce_T {u : Shape} (x : FVec Ideal Cert.ReferenceIdeal.S8x2048x64 .f32) (init : u.Idx → Ideal .f32)
    (hu : 0 < u.numel) :
    Host.reduceAdd (T64 x) init Cert.KernelIdeal.Gen.reducesTo_S8x64x2048_S64_d0_2 hu
      = Host.reduceAdd x init Cert.ReferenceIdeal.Gen.reducesTo_S8x2048x64_S64_d0_1 hu := by
  funext j
  obtain ⟨o, rfl⟩ : ∃ o : Fin 64, j = ix1 o := ⟨j 0, eq_ix1 j⟩
  rw [hostReduceAdd_apply, hostReduceAdd_apply]
  unfold Ideal.hostReduceAdd
  refine congrArg (fun r => init (Shape.Idx.first hu) + r) ?_
  refine Finset.sum_nbij'
    (fun i : Cert.KernelIdeal.S8x64x2048.Idx => ix3 (n0 := 8) (n1 := 2048) (n2 := 64) (i 0) (i 2) (i 1))
    (fun i : Cert.ReferenceIdeal.S8x2048x64.Idx => ix3 (n0 := 8) (n1 := 64) (n2 := 2048) (i 0) (i 2) (i 1))
    ?_ ?_ ?_ ?_ ?_
  · intro i hi
    obtain ⟨n, c, v, rfl⟩ : ∃ n c v, i = ix3 n c v := ⟨i 0, i 1, i 2, eq_ix3 i⟩
    have hc : ix1 c = ix1 o := (dropK_ix3 n c v).symm.trans (Finset.mem_filter.1 hi).2
    exact Finset.mem_filter.2 ⟨Finset.mem_univ _, (dropR_ix3 n v c).trans hc⟩
  · intro i hi
    obtain ⟨n, v, c, rfl⟩ : ∃ n v c, i = ix3 n v c := ⟨i 0, i 1, i 2, eq_ix3 i⟩
    have hc : ix1 c = ix1 o := (dropR_ix3 n v c).symm.trans (Finset.mem_filter.1 hi).2
    exact Finset.mem_filter.2 ⟨Finset.mem_univ _, (dropK_ix3 n c v).trans hc⟩
  · intro i _
    obtain ⟨n, c, v, rfl⟩ : ∃ n c v, i = ix3 n c v := ⟨i 0, i 1, i 2, eq_ix3 i⟩
    rfl
  · intro i _
    obtain ⟨n, v, c, rfl⟩ : ∃ n v c, i = ix3 n v c := ⟨i 0, i 1, i 2, eq_ix3 i⟩
    rfl
  · intro i _
    obtain ⟨n, c, v, rfl⟩ : ∃ n c v, i = ix3 n c v := ⟨i 0, i 1, i 2, eq_ix3 i⟩
    exact T64_apply x n c v

theorem mean_T (s : FVec Ideal Cert.ReferenceIdeal.S8x2048x64 .f32) : meanK (T64 s) = meanR s := by
  unfold meanK meanR
  rw [reduce_T]

theorem spreadK_apply (v0 : FVec Ideal Cert.KernelIdeal.S64 .f32) (k : FVec Ideal Cert.KernelIdeal.S_ .f32)
    (n : Fin 8) (c : Fin 64) (v : Fin 2048) :
    broadcastInDim Cert.KernelIdeal.S8x64x2048 ![0, 1, 2] Cert.KernelIdeal.Gen.bcast_S1x64x1_S8x64x2048_0_1_2
        (Host.divf (broadcastInDim Cert.KernelIdeal.S1x64x1 ![1] Cert.KernelIdeal.Gen.bcast_S64_S1x64x1_1 v0)
          (broadcastInDim Cert.KernelIdeal.S1x64x1 ![] Cert.KernelIdeal.Gen.bcast_S_S1x64x1 k)) (ix3 n c v)
      = Ideal.div (v0 (ix1 c)) (k ix0) := by
  refine (broadcastInDim_apply _ _ _ _ (ix3 (n0 := 1) (n1 := 64) (n2 := 1) 0 c 0)
    (fun a => by match a with | ⟨0, _⟩ => rfl | ⟨1, _⟩ => rfl | ⟨2, _⟩ => rfl)).trans ?_
  rw [hostDivf_apply]
  refine congrArg₂ Ideal.div ?_ ?_
  · exact broadcastInDim_apply _ _ _ _ (ix1 c) (fun a => by match a with | ⟨0, _⟩ => rfl)
  · exact broadcastInDim_scalar_apply _ _ _

theorem spreadR_div_apply (v0 : FVec Ideal Cert.ReferenceIdeal.S64 .f32) (k : FVec Ideal Cert.ReferenceIdeal.S_ .f32)
    (n : Fin 8) (v : Fin 2048) (c : Fin 64) :
    broadcastInDim Cert.ReferenceIdeal.S8x2048x64 ![0, 1, 2] Cert.ReferenceIdeal.Gen.bcast_S1x1x64_S8x2048x64_0_1_2
        (Host.divf (broadcastInDim Cert.ReferenceIdeal.S1x1x64 ![2] Cert.ReferenceIdeal.Gen.bcast_S64_S1x1x64_2 v0)
          (broadcastInDim Cert.ReferenceIdeal.S1x1x64 ![] Cert.ReferenceIdeal.Gen.bcast_S_S1x1x64 k)) (ix3 n v c)
      = Ideal.div (v0 (ix1 c)) (k ix0) := by
  refine (broadcastInDim_apply _ _ _ _ (ix3 (n0 := 1) (n1 := 1) (n2 := 64) 0 0 c)
    (fun a => by match a with | ⟨0, _⟩ => rfl | ⟨1, _⟩ => rfl | ⟨2, _⟩ => rfl)).trans ?_
  rw [hostDivf_apply]
  refine congrArg₂ Ideal.div ?_ ?_
  · exact broadcastInDim_apply _ _ _ _ (ix1 c) (fun a => by match a with | ⟨0, _⟩ => rfl)
  · exact broadcastInDim_scalar_apply _ _ _

theorem devSq_T (s : FVec Ideal Cert.ReferenceIdeal.S8x2048x64 .f32) : devSqK (T64 s) = T64 (devSqR s) := by
  funext j
  obtain ⟨n, c, v, rfl⟩ : ∃ n c v, j = ix3 n c v := ⟨j 0, j 1, j 2, eq_ix3 j⟩
  rw [T64_apply]
  unfold devSqK devSqR
  have hd : ∀ (a : FVec Ideal Cert.KernelIdeal.S8x64x2048 .f32) (b : FVec Ideal Cert.ReferenceIdeal.S8x2048x64 .f32),
      a (ix3 n c v) = b (ix3 n v c) → mulf a a (ix3 n c v) = mulf b b (ix3 n v c) := fun a b e => by
    rw [mulf_apply, mulf_apply, e]
  refine hd _ _ ?_
  rw [subf_apply, subf_apply, T64_apply, spreadK_apply, spreadR_div_apply, reduce_T]

theorem var_T (s : FVec Ideal Cert.ReferenceIdeal.S8x2048x64 .f32) : varK (T64 s) = varR s := by
  unfold varK varR
  rw [devSq_T, reduce_T]
  rfl

end Cert.Bridge

end
-- ==== Proof.Bridge.Out.lean ====
import proofs.«142868_j70317204570386_1_alg».proof.Proof.Bridge.Lin
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Idealize.ShloMosaic Idealize.ShloMosaic.ValueIdx
open Cert.KernelIdeal.Hand Cert.ReferenceIdeal.Hand

theorem colK_rsqrt (var : FVec Ideal Cert.ReferenceIdeal.S64 .f32) (n : Fin 8) (o : Fin 64) (v : Fin 2048) :
    colK (rsqrt (addf (broadcastInDim Cert.KernelIdeal.S64x1 ![0] Cert.KernelIdeal.Gen.bcast_S64_S64x1_0 var)
        (broadcast Cert.KernelIdeal.S64x1 (Scalar.ofBits .f32 0x3727C5AC#32)))) (ix3 n o v)
      = Ideal.rsqrt (var (ix1 o) + Ideal.ofBits .f32 0x3727C5AC#32) :=
  congrArg (fun t => Ideal.rsqrt (t + Ideal.ofBits .f32 0x3727C5AC#32)) (colK_bias_apply var n o v)

theorem hostRsqrt_apply (var : FVec Ideal Cert.ReferenceIdeal.S64 .f32) (o : Fin 64) :
    Host.rsqrt (addf var (broadcastInDim Cert.ReferenceIdeal.S64 ![] Cert.ReferenceIdeal.Gen.bcast_S_S64
        (constant (F := Ideal) Cert.ReferenceIdeal.S_ .f32 0x3727C5AC#32))) (ix1 o)
      = Ideal.rsqrt (var (ix1 o) + Ideal.ofBits .f32 0x3727C5AC#32) := rfl

theorem bnK_T_apply (s : FVec Ideal Cert.ReferenceIdeal.S8x2048x64 .f32) (mean var gamma beta : FVec Ideal Cert.ReferenceIdeal.S64 .f32)
    (n : Fin 8) (c : Fin 64) (v : Fin 2048) :
    bnK (T64 s) (broadcastInDim Cert.KernelIdeal.S64x1 ![0] Cert.KernelIdeal.Gen.bcast_S64_S64x1_0 mean) (broadcastInDim Cert.KernelIdeal.S64x1 ![0] Cert.KernelIdeal.Gen.bcast_S64_S64x1_0 var) (broadcastInDim Cert.KernelIdeal.S64x1 ![0] Cert.KernelIdeal.Gen.bcast_S64_S64x1_0 gamma) (broadcastInDim Cert.KernelIdeal.S64x1 ![0] Cert.KernelIdeal.Gen.bcast_S64_S64x1_0 beta) (ix3 n c v)
      = ((s (ix3 n v c) - mean (ix1 c)) * Ideal.rsqrt (var (ix1 c) + Ideal.ofBits .f32 0x3727C5AC#32)) * gamma (ix1 c) + beta (ix1 c) := by
  unfold bnK
  rw [addf_apply, mulf_apply, mulf_apply, subf_apply, T64_apply, colK_rsqrt, colK_bias_apply, colK_bias_apply, colK_bias_apply]

theorem outR_apply (s : FVec Ideal Cert.ReferenceIdeal.S8x2048x64 .f32) (mean var gamma beta : FVec Ideal Cert.ReferenceIdeal.S64 .f32)
    (n : Fin 8) (v : Fin 2048) (c : Fin 64) :
    outR s mean var gamma beta (ix3 n v c)
      = ((s (ix3 n v c) - mean (ix1 c)) * Ideal.rsqrt (var (ix1 c) + Ideal.ofBits .f32 0x3727C5AC#32)) * gamma (ix1 c) + beta (ix1 c) := by
  unfold outR
  rw [addf_apply, mulf_apply, mulf_apply, subf_apply, spreadR_apply, spreadR_apply, spreadR_apply, spreadR_apply, hostRsqrt_apply]

theorem out_T (s : FVec Ideal Cert.ReferenceIdeal.S8x2048x64 .f32) (mean var gamma beta : FVec Ideal Cert.ReferenceIdeal.S64 .f32) :
    bnK (T64 s) (broadcastInDim Cert.KernelIdeal.S64x1 ![0] Cert.KernelIdeal.Gen.bcast_S64_S64x1_0 mean) (broadcastInDim Cert.KernelIdeal.S64x1 ![0] Cert.KernelIdeal.Gen.bcast_S64_S64x1_0 var) (broadcastInDim Cert.KernelIdeal.S64x1 ![0] Cert.KernelIdeal.Gen.bcast_S64_S64x1_0 gamma) (broadcastInDim Cert.KernelIdeal.S64x1 ![0] Cert.KernelIdeal.Gen.bcast_S64_S64x1_0 beta) = T64 (outR s mean var gamma beta) := by
  funext j
  obtain ⟨n, c, v, rfl⟩ : ∃ n c v, j = ix3 n c v := ⟨j 0, j 1, j 2, eq_ix3 j⟩
  rw [T64_apply]
  exact (bnK_T_apply s mean var gamma beta n c v).trans (outR_apply s mean var gamma beta n v c).symm

theorem T64_back (y : FVec Ideal Cert.ReferenceIdeal.S8x2048x64 .f32) :
    transpose Cert.KernelIdeal.S8x2048x64 [0, 2, 1] (T64 y) Cert.KernelIdeal.Gen.transposes_S8x64x2048_S8x2048x64_0_2_1 = y := by
  funext j
  obtain ⟨n, v, c, rfl⟩ : ∃ n v c, j = ix3 n v c := ⟨j 0, j 1, j 2, eq_ix3 j⟩
  refine (transpose_apply _ _ _ _ (ix3 (n0 := 8) (n1 := 64) (n2 := 2048) n c v)
    (fun b => by match b with | ⟨0, _⟩ => rfl | ⟨1, _⟩ => rfl | ⟨2, _⟩ => rfl)).trans ?_
  exact T64_apply y n c v

end Cert.Bridge

end
-- ==== Proof.Bridge.All.lean ====
import proofs.«142868_j70317204570386_1_alg».proof.Proof.Bridge.Defs
import proofs.«142868_j70317204570386_1_alg».proof.Proof.Bridge.Hop
import proofs.«142868_j70317204570386_1_alg».proof.Proof.Bridge.Lin
import proofs.«142868_j70317204570386_1_alg».proof.Proof.Bridge.Stats
import proofs.«142868_j70317204570386_1_alg».proof.Proof.Bridge.Out
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Idealize.ShloMosaic Idealize.ShloMosaic.ValueIdx
open Cert.KernelIdeal.Hand Cert.ReferenceIdeal.Hand

theorem kernelTerm_eq_refTerm (x : FVec Ideal Cert.ReferenceIdeal.S8x2048x32 .f32) (A0 A1 A2 : FVec Ideal Cert.ReferenceIdeal.S8x2048x2048 .f32) (W : FVec Ideal Cert.ReferenceIdeal.S64x224 .f32)
    (b gamma beta : FVec Ideal Cert.ReferenceIdeal.S64 .f32) :
    kernelTerm x A0 A1 A2 W b gamma beta = refTerm x A0 A1 A2 W b gamma beta := by
  dsimp only [kernelTerm, refTerm]
  rw [show transpose Cert.KernelIdeal.S8x32x2048 [0, 2, 1] x Cert.KernelIdeal.Gen.transposes_S8x2048x32_S8x32x2048_0_2_1 = T32 x from rfl]
  simp only [hop_T, cat_T]

  generalize hf : catR x (hopR A0 x) (hopR A0 (hopR A0 x)) (hopR A1 x) (hopR A1 (hopR A1 x)) (hopR A2 x) (hopR A2 (hopR A2 x)) = f
  have e1 := lin_T f W b
  rw [show linK (T224 f) W (broadcastInDim Cert.KernelIdeal.S64x1 ![0] Cert.KernelIdeal.Gen.bcast_S64_S64x1_0 b) = T64 (linR f W b) from e1]
  generalize hs : linR f W b = s
  rw [mean_T, var_T]
  have e2 := out_T s (meanR s) (varR s) gamma beta
  rw [show bnK (T64 s) _ _ _ _ = T64 (outR s (meanR s) (varR s) gamma beta) from e2]
  exact T64_back _

end Cert.Bridge

end
-- ==== Proof.lean ====
/- A graph-convolution block (three supports, two hops each, a 1×1 convolution with bias, a batch normalisation) against
   its jnp reference: kernelTerm and refTerm are one function of the arguments, hop by hop with the last two axes swapped. -/
import proofs.«142868_j70317204570386_1_alg».proof.Defs
import proofs.«142868_j70317204570386_1_alg».proof.Proof.Gen.Kernel
import proofs.«142868_j70317204570386_1_alg».proof.Proof.Gen.KernelIdeal
import proofs.«142868_j70317204570386_1_alg».proof.Proof.Gen.ReferenceIdeal
import proofs.«142868_j70317204570386_1_alg».proof.Proof.Gen.Pre_finite_inputs
import proofs.«142868_j70317204570386_1_alg».proof.Proof.KernelFrame.Run
import proofs.«142868_j70317204570386_1_alg».proof.Proof.KernelIdealFrame.Run
import proofs.«142868_j70317204570386_1_alg».proof.Proof.KernelIdealValue.Final
import proofs.«142868_j70317204570386_1_alg».proof.Proof.RefRun
import proofs.«142868_j70317204570386_1_alg».proof.Proof.Bridge.All
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => Cert.Kernel.Hand.args_end m ρ c _ (h c)) (Cert.Kernel.Hand.run_all m ρ)

theorem frame_ki : Cert.frame_KernelIdeal := fun m ρ _ =>
  (θ_run Cert.KernelIdeal.defs _ _).mono (fun _ h c => Cert.KernelIdeal.Hand.args_end m ρ c _ (h c)) (Cert.KernelIdeal.Hand.run_all m ρ)

theorem frame_ri : Cert.frame_ReferenceIdeal := fun m ρ _ =>
  (θ_run Cert.ReferenceIdeal.defs _ _).mono (fun _ h c => (h c).2) (Cert.ReferenceIdeal.Hand.run m ρ)

theorem algebraic : Cert.algebraic_KernelIdeal_ReferenceIdeal := by
  intro m ρ m' ρ' _ hagree
  refine ⟨_, (θ_run Cert.KernelIdeal.defs _ _).mono (fun _ h c =>
    ⟨(h c _ (Cert.KernelIdeal.Hand.mem_uc Cert.KernelIdeal.main_v19 (by decide))).trans (Cert.KernelIdeal.Hand.W14_result m ρ c),
      Cert.KernelIdeal.Hand.args_end m ρ c _ (h c)⟩) (Cert.KernelIdeal.Hand.run_all m ρ), ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Bridge.kernelTerm_eq_refTerm _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
